-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x128 .f32) (main_arg1 : IVec S8192 32) (main_arg2 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S1 : Shape := ⟨1, ![1]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S256x128 : Shape := ⟨2, ![256, 128]⟩
abbrev S1024x1 : Shape := ⟨2, ![1024, 1]⟩
abbrev S1x256 : Shape := ⟨2, ![1, 256]⟩
abbrev S1024 : Shape := ⟨1, ![1024]⟩
abbrev S128x256 : Shape := ⟨2, ![128, 256]⟩
abbrev S1024x256 : Shape := ⟨2, ![1024, 256]⟩

abbrev nBuf : Space → Nat
  | .hbm => 23
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192x1, .i32⟩
  | .hbm, ⟨15, _⟩ => ⟨S1x8192, .i32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S1024x1, .i32⟩
  | .local _ .vmem, ⟨5, _⟩ => ⟨S1024x1, .i32⟩
  | .local _ .vmem, ⟨6, _⟩ => ⟨S1x256, .i32⟩
  | .local _ .vmem, ⟨7, _⟩ => ⟨S1x256, .i32⟩
  | .local _ .vmem, ⟨8, _⟩ => ⟨S1024, .f32⟩
  | .local _ .vmem, ⟨9, _⟩ => ⟨S1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v107 : BitVec 1 := Scalar.cmpi .eq arg1 c31_i32
  let v108 : BitVec 32 := Scalar.extui v107
  let c0_i32_49 : BitVec 32 := 0#32
  let v109 : BitVec 1 := Scalar.cmpi .ne v108 c0_i32_49
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  natLt_1_32 : 1 < 32
  iota_S1024x256_d0_w32 : S1024x256.Iotas .tc 32 [0]
  iota_S1024x256_d1_w32 : S1024x256.Iotas .tc 32 [1]
  reduces_S1024x256_S1024 : S1024x256.Reduces [1] S1024
  shapeCasts_S1024_S1024x1 : S1024.ShapeCasts S1024x1
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .bf16 = 32 ∨ (Rect.block (s := S8192x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S1 : Shape := ⟨1, ![1]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x8192 : Shape := ⟨2, ![128, 8192]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1, .f32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S128x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .i32⟩
  | .hbm, ⟨48, _⟩ => ⟨S8192x8192, .i32⟩
  | .hbm, ⟨49, _⟩ => ⟨S_, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .i1⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192x8192, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_cst_18 : Ref sig .tc := ⟨.hbm, 102, rfl⟩
abbrev main_v70 : Ref sig .tc := ⟨.hbm, 103, rfl⟩
abbrev main_cst_19 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x128_S8192_d1 : S8192x128.ReducesTo [1] S8192
  h_S_ : 0 < S_.numel
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Runs.lean ====
import proofs.«130313_j69320772158193_1_alg».proof.Proof.Gen.Kernel.Launch
import proofs.«130313_j69320772158193_1_alg».proof.Proof.Gen.Kernel.Skeleton
import proofs.«130313_j69320772158193_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) [FloatOps F] : Type := MT nD τ sig Unit (Elt F) ℕ (UR sig nD τ) ℕ

local notation "𝕄" => MM F

variable (m : (ℓ : Loc nD τ sig) → Buf (Elt F) ℓ) (ρ : Dev nD → PrngReg)

abbrev V0 (c : Dev nD) : Valuation τ sig (Elt F) := StableHlo.after (List.flatten [hostOps0, hostOps0_1]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x1 .f32 := Memref.whole cc0_scratch4
abbrev scM0_5 : Memref sig .tc .vmem S1024x1 .f32 := Memref.whole cc0_scratch5

abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view
abbrev VS0_4 : View sig .tc .vmem S1024x1 .f32 := scM0_4.view
abbrev VS0_5 : View sig .tc .vmem S1024x1 .f32 := scM0_5.view

abbrev VO0_4 : View sig .tc .vmem S1024 .f32 := (Memref.whole cc0_stg4_0 : Memref sig .tc .vmem S1024 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.KB.RunA.lean ====
import proofs.«130313_j69320772158193_1_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_A (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i)
    (x0 : Vec F S1024x128 .bf16) (x1 : Vec F S256x128 .bf16) (x2 : Vec F S1024x1 .i32) (x3 : Vec F S1x256 .i32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨[], ?_, ?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KB.RunB.lean ====
import proofs.«130313_j69320772158193_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_B (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i)
    (x0 : Vec F S1024x128 .bf16) (x1 : Vec F S256x128 .bf16) (x2 : Vec F S1024x1 .i32) (x3 : Vec F S1x256 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨[], ?_, ?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KB.RunC.lean ====
import proofs.«130313_j69320772158193_1_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_C (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i)
    (x0 : Vec F S1024x128 .bf16) (x1 : Vec F S256x128 .bf16) (x2 : Vec F S1024x1 .i32) (x3 : Vec F S1x256 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KB.Frame.lean ====
import proofs.«130313_j69320772158193_1_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

abbrev Scr6 (F : FTy → Type) [FloatOps F] : Type :=
  Vec F S1024x1 .f32 × Vec F S1024x1 .f32 × Vec F S1024x1 .f32 × Vec F S1024x1 .f32 × Vec F S1024x1 .f32 × Vec F S1024x1 .f32

abbrev Outs (F : FTy → Type) [FloatOps F] : Type := Vec F S1024 .f32 × Scr6 F

/-- The output block and the six scratch columns that the given lists of stores leave, each list covering its whole shape. -/
def readBack (L4 : List (View.Piece (Elt F) S1024 .f32)) (LS0 LS1 LS2 LS3 LS4 LS5 : List (View.Piece (Elt F) S1024x1 .f32)) : Outs F :=
  (VO0_4.read (Elt F) (VO0_4.writes (Elt F) VO0_4.junk L4), VS0_0.read (Elt F) (VS0_0.writes (Elt F) VS0_0.junk LS0),
   VS0_1.read (Elt F) (VS0_1.writes (Elt F) VS0_1.junk LS1), VS0_2.read (Elt F) (VS0_2.writes (Elt F) VS0_2.junk LS2),
   VS0_3.read (Elt F) (VS0_3.writes (Elt F) VS0_3.junk LS3), VS0_4.read (Elt F) (VS0_4.writes (Elt F) VS0_4.junk LS4),
   VS0_5.read (Elt F) (VS0_5.writes (Elt F) VS0_5.junk LS5))

section
variable (c : Dev nD) (i : grid0.Coords)
  (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)

def caseA (hc0 : cond0_0 i) (hc1 : ¬cond0_1 i) (x0 : Vec F S1024x128 .bf16) (x1 : Vec F S256x128 .bf16) (x2 : Vec F S1024x1 .i32) (x3 : Vec F S1x256 .i32) : Outs F :=
  let r := kernelRun0_A c i arg2 harg2 arg3 harg3 arg4 harg4 arg5 harg5 arg6 harg6 arg7 harg7 arg8 harg8 arg9 harg9 arg10 harg10 arg11 harg11 arg12 harg12 hc0 hc1 x0 x1 x2 x3
  readBack r.1 r.2.1 r.2.2.1 r.2.2.2.1 r.2.2.2.2.1 r.2.2.2.2.2.1 r.2.2.2.2.2.2.1

def caseB (hc0 : ¬cond0_0 i) (hc1 : ¬cond0_1 i) (x0 : Vec F S1024x128 .bf16) (x1 : Vec F S256x128 .bf16) (x2 : Vec F S1024x1 .i32) (x3 : Vec F S1x256 .i32) (s : Scr6 F) : Outs F :=
  let r := kernelRun0_B c i arg2 harg2 arg3 harg3 arg4 harg4 arg5 harg5 arg6 harg6 arg7 harg7 arg8 harg8 arg9 harg9 arg10 harg10 arg11 harg11 arg12 harg12 hc0 hc1 x0 x1 x2 x3 s.1 s.2.1 s.2.2.1 s.2.2.2.1 s.2.2.2.2.1 s.2.2.2.2.2
  readBack r.1 r.2.1 r.2.2.1 r.2.2.2.1 r.2.2.2.2.1 r.2.2.2.2.2.1 r.2.2.2.2.2.2.1

def caseC (hc0 : ¬cond0_0 i) (hc1 : cond0_1 i) (x0 : Vec F S1024x128 .bf16) (x1 : Vec F S256x128 .bf16) (x2 : Vec F S1024x1 .i32) (x3 : Vec F S1x256 .i32) (s : Scr6 F) : Outs F :=
  let r := kernelRun0_C c i arg2 harg2 arg3 harg3 arg4 harg4 arg5 harg5 arg6 harg6 arg7 harg7 arg8 harg8 arg9 harg9 arg10 harg10 arg11 harg11 arg12 harg12 hc0 hc1 x0 x1 x2 x3 s.1 s.2.1 s.2.2.1 s.2.2.2.1 s.2.2.2.2.1 s.2.2.2.2.2
  readBack r.1 r.2.1 r.2.2.1 r.2.2.2.1 r.2.2.2.2.1 r.2.2.2.2.2.1 r.2.2.2.2.2.2.1

end

/-- The output block and the six scratch columns after grid point `n`: a first column tile starts from nothing, a later one from what point `n - 1` left. -/
def outsAt0 (c : Dev nD) : (n : ℕ) → n < cfg0.N → Outs F
  | 0, hn => caseA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 32 = 0 then
      caseA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 32 = 31 then
        caseC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2
      else
        caseB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2

theorem outsAt0_A (c : Dev nD) (t : Fin cfg0.N) (h0 : t.val % 32 = 0) (h1 : ¬t.val % 32 = 31) :
    outsAt0 m c t.val t.isLt = caseA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 m c t.val t.isLt = caseB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = caseC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2.1) ∗ owns (c : Thread nD τ) scM0_5 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.Kernel.Hand

end
-- ==== Proof.KB.Body.lean ====
import proofs.«130313_j69320772158193_1_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]

theorem leaves0_1 (c : Dev nD) (t : Fin cfg0.N) : (dats m 0 c).leavesExact 1 t = owns (c : Thread nD τ) (ms0_1 t) fullShare ((dats m 0 c).after 1 t) := by
  unfold Dat.leavesExact; rw [liveAt0_1 t]

theorem leaves0_2 (c : Dev nD) (t : Fin cfg0.N) : (dats m 0 c).leavesExact 2 t = owns (c : Thread nD τ) (ms0_2 t) fullShare ((dats m 0 c).after 2 t) := by
  unfold Dat.leavesExact; rw [liveAt0_2 t]

theorem leaves0_3 (c : Dev nD) (t : Fin cfg0.N) : (dats m 0 c).leavesExact 3 t = owns (c : Thread nD τ) (ms0_3 t) fullShare ((dats m 0 c).after 3 t) := by
  unfold Dat.leavesExact; rw [liveAt0_3 t]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- At every point the invariant gives back the six scratch columns at some contents. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

set_option maxHeartbeats 16000000 in

/-- A first column tile resets the columns before it reads them, so whatever they held will do. -/
theorem sound_A (c : Dev nD) (t : Fin cfg0.N) (h0 : t.val % 32 = 0) :
    bodyPre m c t ⊢ wp frame (wpE (defs₀ (F := F)) Variants.none c none) Set.univ (bodyAt0 t) (fun _ => bodyPost m c t) := by
  have h1 : ¬t.val % 32 = 31 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [Dat.leavesExact_idle (dats m 0 c) 4 t (idleAt0_4 t (fun h => h1 ((hcond0_1 t).mp h))) (noFlush0_4 t (fun h => h1 ((hcond0_1 t).mp h)))]
  rw [outsAt0_A m c t h0 h1]
  unfold caseA readBack; (try dsimp only)
  refine (sep_mono ((Phi_any m c t.castSucc).trans (Entails.of_eq (PhiA0_eq c))) .rfl).trans ?_
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t)).2.2.2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  iexists _; iexact H4

set_option maxHeartbeats 16000000 in
theorem sound_C (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [show (dats m 0 c).leavesExact 4 t = owns (c : Thread nD τ) (ms0_4 t) fullShare ((dats m 0 c).after 4 t) from by
    unfold Dat.leavesExact; rw [liveAt0_4 t ((hcond0_1 t).mpr h1)], after0_4]
  rw [outsAt0_C m c t h0 h1]
  unfold caseC readBack; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).2.2.2.2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (View.cover_of_tiledL _ S1024.size (by sl_kernel_rfl))

set_option maxHeartbeats 16000000 in
theorem sound_B (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [Dat.leavesExact_idle (dats m 0 c) 4 t (idleAt0_4 t (fun h => h1 ((hcond0_1 t).mp h))) (noFlush0_4 t (fun h => h1 ((hcond0_1 t).mp h)))]
  rw [outsAt0_B m c t h0 h1]
  unfold caseB readBack; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).2.2.2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  iexists _; iexact H4

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0
  · by_cases h1 : t.val % 32 = 31
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_any m c _

end Cert.Kernel.Hand

end
-- ==== Proof.KB.Launch.lean ====
import proofs.«130313_j69320772158193_1_alg».proof.Proof.KB.Body
import Idealize.ShloMosaic.Lib.Pipeline.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

def tailVal (o : (⟨S8192, .f32⟩ : BufTy).Contents (Elt F)) : (⟨S_, .f32⟩ : BufTy).Contents (Elt F) :=
  mulf (Host.divf (Host.reduceAdd o (constant S_ .f32 0x00000000#32) reducesTo_S8192_S_d0 h_S_) (constant S_ .f32 0x46000000#32)) (constant S_ .f32 0x3F800000#32)

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := StableHlo.after hostOps0_1 (W1 m c)

theorem W2_eq (c : Dev nD) : W2 m c = V0 m c := rfl

open Classical in
def W3 (c : Dev nD) : Valuation τ sig (Elt F) := fun b =>
  if h : Proc.devRef .tc main_v8 = b then
    cast (congrArg (fun b' : DevRef τ sig => b'.ty.Contents (Elt F)) h) ((dats m 0 c).arrAt 4 cfg0.N)
  else W2 m c b

theorem W3_out (c : Dev nD) : W3 m c (Proc.devRef .tc main_v8) = (dats m 0 c).arrAt 4 cfg0.N := by
  unfold W3; rw [dif_pos rfl]; rfl

theorem W3_of_ne (c : Dev nD) (b : Ref sig .tc) (hb : main_v8 ≠ b) : W3 m c (Proc.devRef .tc b) = W2 m c (Proc.devRef .tc b) := by
  unfold W3; rw [dif_neg]; exact fun e => hb (Proc.devRef_injective _ e)

abbrev W4 (c : Dev nD) : Valuation τ sig (Elt F) := StableHlo.after hostOps1 (W3 m c)

theorem win_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

theorem arrs_image : Finset.univ.image (Pipeline.arrRef spec0) = ([main_v5, main_v6, main_v7, main_v8] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

theorem arrs_sub : Finset.univ.image (Pipeline.arrRef spec0) ⊆ Finset.univ.filter fun b : Ref sig .tc => ¬ b.isScoped := fun b hb => by
  obtain ⟨w, -, rfl⟩ := Finset.mem_image.mp hb
  exact Finset.mem_filter.mpr ⟨Finset.mem_univ _, by simp [winFacts₀0.arr_unscoped w]⟩

theorem ub_split (c : Dev nD) (W : (b : Ref sig .tc) → Buf (Elt F) ((c : Thread nD τ).loc b)) :
    (unscopedBufs (Ix := Unit) (Name := ℕ) (U := UR sig nD τ) (Lvl := ℕ) c W : sProp 𝕄)
      = iprop(((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8))
        ∗ Pipeline.unscopedRest spec0 c W) := by
  unfold unscopedBufs Pipeline.unscopedRest
  rw [bigSep_sdiff_split arrs_sub, bigSep_eq_bigSepL_of_eq [main_v5, main_v6, main_v7, main_v8] arrs_image (by decide)]
  rfl

theorem arrays_entry (c : Dev nD) :
    iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8) ↦{fullShare} V m c main_v8))
      ⊢ ((dats m 0 c).arrays ((dats m 0 c).arrAt · 0) : sProp 𝕄) := by
  unfold Pipeline.Dat.arrays
  rw [bigSep_W0, win_pt, win_pt, win_pt, win_pt, win_pt, share0, share1, share2, share3, share4]
  iintro ⟨H5, H6, H7, H8⟩
  ihave H5' := (pointsTo_share (PosShare.mem_left_op_right fullShare)).1 $$ H5
  icases H5' with ⟨H5l, H5r⟩
  isplitl [H5l]; · iexact H5l
  isplitl [H5r]; · iexact H5r
  isplitl [H6]; · iexact H6
  isplitl [H7]; · iexact H7
  iexact H8

theorem arrays_exit (c : Dev nD) :
    ((dats m 0 c).arrays ((dats m 0 c).arrAt · cfg0.N) : sProp 𝕄)
      ⊢ iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8) ↦{fullShare} (dats m 0 c).arrAt 4 cfg0.N)) := by
  unfold Pipeline.Dat.arrays
  rw [bigSep_W0, win_pt, win_pt, win_pt, win_pt, win_pt, share0, share1, share2, share3, share4]
  beta_reduce
  rw [(dats m 0 c).arrAt_in 0 rfl, (dats m 0 c).arrAt_in 1 rfl, (dats m 0 c).arrAt_in 2 rfl, (dats m 0 c).arrAt_in 3 rfl]
  iintro ⟨H5l, H5r, H6, H7, H8⟩
  ihave H5 := (pointsTo_share (PosShare.mem_left_op_right fullShare)).2 $$ [H5l H5r]
  · isplitl [H5l]; · iexact H5l
    iexact H5r
  isplitl [H5]; · iexact H5
  isplitl [H6]; · iexact H6
  isplitl [H7]; · iexact H7
  iexact H8

theorem entry_split (c : Dev nD) :
    (StableHlo.held (c : Thread nD τ) (Pipeline.ucRefs τ sig) (W2 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (W2 m c), ub_split]
  exact sep_mono (arrays_entry m c) .rfl

theorem exit_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (W3 m c) : sProp 𝕄) := by
  rw [← Pipeline.unscopedBufs_held c (W3 m c), ub_split]
  refine sep_mono ((arrays_exit m c).trans ?_) (Entails.of_eq ?_)
  · rw [W3_of_ne m c main_v5 (by decide), W3_of_ne m c main_v6 (by decide), W3_of_ne m c main_v7 (by decide), W3_out]
    exact .rfl
  · unfold Pipeline.unscopedRest
    exact bigSep_congr fun b hb => by
      beta_reduce
      rw [W3_of_ne m c b fun e => (Finset.mem_sdiff.mp hb).2 (e ▸ Finset.mem_image.mpr ⟨4, Finset.mem_univ _, rfl⟩)]
      rfl

abbrev adm : (p : Fin 1) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ ((dats m 0 c).Φ 0 : sProp 𝕄) := by
      have h' := hin m c; unfold Pipeline.ΦA at h'; exact h'
    iintro ⟨Hp, -, Hr⟩
    iapply h
    isplitl [Hr]; · iexact Hr
    iexact Hp
  hout c := by
    rw [Pipeline.ownSems0_none]
    have h : ((dats m 0 c).Φ (Fin.last cfg0.N) : sProp 𝕄) ⊢ iprop(Pipeline.scopedRest spec0 c ∗ ∃ r, prngReg c r) := by
      have h' := hout m c; unfold Pipeline.ΦA at h'; exact h'
    refine h.trans (show iprop(Pipeline.scopedRest spec0 c ∗ ∃ r, prngReg c r) ⊢ (iprop((∃ r, prngReg c r) ∗ emp ∗ Pipeline.scopedRest spec0 c) : sProp 𝕄) from ?_)
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (dats m) () defs₀ 𝒱₀ L lv) :=
  [ .host (hseg hostOps0 hostOps0_sub fresh0 (W0 m)),
    .host (hseg hostOps0_1 hostOps0_1_sub fresh0_1 (W1 m)),
    .region (reg0 m),
    .host (hseg hostOps1 hostOps1_sub fresh1 (W3 m)) ]

theorem main_run (c : Dev nD) : main (F := F) c = Pipeline.Seg.run (segs m) := (main_chain c).trans (by chain_rfl)

theorem W4_v11 (c : Dev nD) : W4 m c (Proc.devRef .tc main_v11) = tailVal (F := F) ((dats m 0 c).arrAt 4 cfg0.N) := by
  show StableHlo.after hostOps1 (W3 m c) (Proc.devRef .tc main_v11) = _
  dsimp only [hostOps1]
  after_results
  rw [W3_out]; rfl

theorem W4_arg0 (c : Dev nD) : W4 m c (Proc.devRef .tc main_arg0) = m ((c : Thread nD τ).loc main_arg0) := by
  show StableHlo.after hostOps1 (W3 m c) (Proc.devRef .tc main_arg0) = _
  dsimp only [hostOps1]
  after_results
  rw [W3_of_ne m c main_arg0 (by decide)]
  show StableHlo.after hostOps0_1 (StableHlo.after hostOps0 (W0 m c)) (Proc.devRef .tc main_arg0) = _
  dsimp only [hostOps0_1, hostOps0]
  after_results
theorem W4_arg1 (c : Dev nD) : W4 m c (Proc.devRef .tc main_arg1) = m ((c : Thread nD τ).loc main_arg1) := by
  show StableHlo.after hostOps1 (W3 m c) (Proc.devRef .tc main_arg1) = _
  dsimp only [hostOps1]
  after_results
  rw [W3_of_ne m c main_arg1 (by decide)]
  show StableHlo.after hostOps0_1 (StableHlo.after hostOps0 (W0 m c)) (Proc.devRef .tc main_arg1) = _
  dsimp only [hostOps0_1, hostOps0]
  after_results
theorem W4_arg2 (c : Dev nD) : W4 m c (Proc.devRef .tc main_arg2) = m ((c : Thread nD τ).loc main_arg2) := by
  show StableHlo.after hostOps1 (W3 m c) (Proc.devRef .tc main_arg2) = _
  dsimp only [hostOps1]
  after_results
  rw [W3_of_ne m c main_arg2 (by decide)]
  show StableHlo.after hostOps0_1 (StableHlo.after hostOps0 (W0 m c)) (Proc.devRef .tc main_arg2) = _
  dsimp only [hostOps0_1, hostOps0]
  after_results

set_option backward.isDefEq.respectTransparency.types false in
theorem run_main : θ_run defs (onTc (τ := τ) (main (F := F))) ⟨m, fun _ => 0, ρ⟩ (fun r => ∀ c : Dev nD,
      r.2.mem ((c.tc : Thread nD τ).loc main_v11) = tailVal (F := F) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v11 (by decide))).trans (W4_v11 m c),
       (h c _ (mem_uc main_arg0 (by decide))).trans (W4_arg0 m c),
       (h c _ (mem_uc main_arg1 (by decide))).trans (W4_arg1 m c),
       (h c _ (mem_uc main_arg2 (by decide))).trans (W4_arg2 m c)⟩)

end Cert.Kernel.Hand

end
-- ==== Proof.KI.Runs.lean ====
import proofs.«130313_j69320772158193_1_alg».proof.Proof.Gen.KernelIdeal.Launch
import proofs.«130313_j69320772158193_1_alg».proof.Proof.Gen.KernelIdeal.Skeleton
import proofs.«130313_j69320772158193_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev MM (F : FTy → Type) [FloatOps F] : Type := MT nD τ sig Unit (Elt F) ℕ (UR sig nD τ) ℕ

local notation "𝕄" => MM F

variable (m : (ℓ : Loc nD τ sig) → Buf (Elt F) ℓ) (ρ : Dev nD → PrngReg)

abbrev V0 (c : Dev nD) : Valuation τ sig (Elt F) := StableHlo.after (List.flatten [hostOps0, hostOps0_1]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x1 .f32 := Memref.whole cc0_scratch4
abbrev scM0_5 : Memref sig .tc .vmem S1024x1 .f32 := Memref.whole cc0_scratch5

abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view
abbrev VS0_4 : View sig .tc .vmem S1024x1 .f32 := scM0_4.view
abbrev VS0_5 : View sig .tc .vmem S1024x1 .f32 := scM0_5.view

abbrev VO0_4 : View sig .tc .vmem S1024 .f32 := (Memref.whole cc0_stg4_0 : Memref sig .tc .vmem S1024 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.RunA.lean ====
import proofs.«130313_j69320772158193_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_A (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i)
    (x0 : Vec F S1024x128 .bf16) (x1 : Vec F S256x128 .bf16) (x2 : Vec F S1024x1 .i32) (x3 : Vec F S1x256 .i32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨[], ?_, ?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunB.lean ====
import proofs.«130313_j69320772158193_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_B (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i)
    (x0 : Vec F S1024x128 .bf16) (x1 : Vec F S256x128 .bf16) (x2 : Vec F S1024x1 .i32) (x3 : Vec F S1x256 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨[], ?_, ?_, ?_, ?_, ?_, ?_, fun xi4 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunC.lean ====
import proofs.«130313_j69320772158193_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

set_option maxHeartbeats 4000000 in
noncomputable def kernelRun0_C (c : Dev nD) (i : grid0.Coords) (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i)
    (x0 : Vec F S1024x128 .bf16) (x1 : Vec F S256x128 .bf16) (x2 : Vec F S1024x1 .i32) (x3 : Vec F S1x256 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L4 : List (View.Piece (Elt F) S1024 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.Frame.lean ====
import proofs.«130313_j69320772158193_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

abbrev Scr6 (F : FTy → Type) [FloatOps F] : Type :=
  Vec F S1024x1 .f32 × Vec F S1024x1 .f32 × Vec F S1024x1 .f32 × Vec F S1024x1 .f32 × Vec F S1024x1 .f32 × Vec F S1024x1 .f32

abbrev Outs (F : FTy → Type) [FloatOps F] : Type := Vec F S1024 .f32 × Scr6 F

/-- The output block and the six scratch columns that the given lists of stores leave, each list covering its whole shape. -/
def readBack (L4 : List (View.Piece (Elt F) S1024 .f32)) (LS0 LS1 LS2 LS3 LS4 LS5 : List (View.Piece (Elt F) S1024x1 .f32)) : Outs F :=
  (VO0_4.read (Elt F) (VO0_4.writes (Elt F) VO0_4.junk L4), VS0_0.read (Elt F) (VS0_0.writes (Elt F) VS0_0.junk LS0),
   VS0_1.read (Elt F) (VS0_1.writes (Elt F) VS0_1.junk LS1), VS0_2.read (Elt F) (VS0_2.writes (Elt F) VS0_2.junk LS2),
   VS0_3.read (Elt F) (VS0_3.writes (Elt F) VS0_3.junk LS3), VS0_4.read (Elt F) (VS0_4.writes (Elt F) VS0_4.junk LS4),
   VS0_5.read (Elt F) (VS0_5.writes (Elt F) VS0_5.junk LS5))

section
variable (c : Dev nD) (i : grid0.Coords)
  (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)

def caseA (hc0 : cond0_0 i) (hc1 : ¬cond0_1 i) (x0 : Vec F S1024x128 .bf16) (x1 : Vec F S256x128 .bf16) (x2 : Vec F S1024x1 .i32) (x3 : Vec F S1x256 .i32) : Outs F :=
  let r := kernelRun0_A c i arg2 harg2 arg3 harg3 arg4 harg4 arg5 harg5 arg6 harg6 arg7 harg7 arg8 harg8 arg9 harg9 arg10 harg10 arg11 harg11 arg12 harg12 hc0 hc1 x0 x1 x2 x3
  readBack r.1 r.2.1 r.2.2.1 r.2.2.2.1 r.2.2.2.2.1 r.2.2.2.2.2.1 r.2.2.2.2.2.2.1

def caseB (hc0 : ¬cond0_0 i) (hc1 : ¬cond0_1 i) (x0 : Vec F S1024x128 .bf16) (x1 : Vec F S256x128 .bf16) (x2 : Vec F S1024x1 .i32) (x3 : Vec F S1x256 .i32) (s : Scr6 F) : Outs F :=
  let r := kernelRun0_B c i arg2 harg2 arg3 harg3 arg4 harg4 arg5 harg5 arg6 harg6 arg7 harg7 arg8 harg8 arg9 harg9 arg10 harg10 arg11 harg11 arg12 harg12 hc0 hc1 x0 x1 x2 x3 s.1 s.2.1 s.2.2.1 s.2.2.2.1 s.2.2.2.2.1 s.2.2.2.2.2
  readBack r.1 r.2.1 r.2.2.1 r.2.2.2.1 r.2.2.2.2.1 r.2.2.2.2.2.1 r.2.2.2.2.2.2.1

def caseC (hc0 : ¬cond0_0 i) (hc1 : cond0_1 i) (x0 : Vec F S1024x128 .bf16) (x1 : Vec F S256x128 .bf16) (x2 : Vec F S1024x1 .i32) (x3 : Vec F S1x256 .i32) (s : Scr6 F) : Outs F :=
  let r := kernelRun0_C c i arg2 harg2 arg3 harg3 arg4 harg4 arg5 harg5 arg6 harg6 arg7 harg7 arg8 harg8 arg9 harg9 arg10 harg10 arg11 harg11 arg12 harg12 hc0 hc1 x0 x1 x2 x3 s.1 s.2.1 s.2.2.1 s.2.2.2.1 s.2.2.2.2.1 s.2.2.2.2.2
  readBack r.1 r.2.1 r.2.2.1 r.2.2.2.1 r.2.2.2.2.1 r.2.2.2.2.2.1 r.2.2.2.2.2.2.1

end

/-- The output block and the six scratch columns after grid point `n`: a first column tile starts from nothing, a later one from what point `n - 1` left. -/
def outsAt0 (c : Dev nD) : (n : ℕ) → n < cfg0.N → Outs F
  | 0, hn => caseA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 32 = 0 then
      caseA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => (fun h' => by (try dsimp only at h'); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 32 = 31 then
        caseC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2
      else
        caseB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2

theorem outsAt0_A (c : Dev nD) (t : Fin cfg0.N) (h0 : t.val % 32 = 0) (h1 : ¬t.val % 32 = 31) :
    outsAt0 m c t.val t.isLt = caseA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 m c t.val t.isLt = caseB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = caseC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ owns (c : Thread nD τ) scM0_5 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2.1) ∗ owns (c : Thread nD τ) scM0_5 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.KernelIdeal.Hand

end
-- ==== Proof.KI.Body.lean ====
import proofs.«130313_j69320772158193_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]

theorem leaves0_1 (c : Dev nD) (t : Fin cfg0.N) : (dats m 0 c).leavesExact 1 t = owns (c : Thread nD τ) (ms0_1 t) fullShare ((dats m 0 c).after 1 t) := by
  unfold Dat.leavesExact; rw [liveAt0_1 t]

theorem leaves0_2 (c : Dev nD) (t : Fin cfg0.N) : (dats m 0 c).leavesExact 2 t = owns (c : Thread nD τ) (ms0_2 t) fullShare ((dats m 0 c).after 2 t) := by
  unfold Dat.leavesExact; rw [liveAt0_2 t]

theorem leaves0_3 (c : Dev nD) (t : Fin cfg0.N) : (dats m 0 c).leavesExact 3 t = owns (c : Thread nD τ) (ms0_3 t) fullShare ((dats m 0 c).after 3 t) := by
  unfold Dat.leavesExact; rw [liveAt0_3 t]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- At every point the invariant gives back the six scratch columns at some contents. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

set_option maxHeartbeats 16000000 in

/-- A first column tile resets the columns before it reads them, so whatever they held will do. -/
theorem sound_A (c : Dev nD) (t : Fin cfg0.N) (h0 : t.val % 32 = 0) :
    bodyPre m c t ⊢ wp frame (wpE (defs₀ (F := F)) Variants.none c none) Set.univ (bodyAt0 t) (fun _ => bodyPost m c t) := by
  have h1 : ¬t.val % 32 = 31 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [Dat.leavesExact_idle (dats m 0 c) 4 t (idleAt0_4 t (fun h => h1 ((hcond0_1 t).mp h))) (noFlush0_4 t (fun h => h1 ((hcond0_1 t).mp h)))]
  rw [outsAt0_A m c t h0 h1]
  unfold caseA readBack; (try dsimp only)
  refine (sep_mono ((Phi_any m c t.castSucc).trans (Entails.of_eq (PhiA0_eq c))) .rfl).trans ?_
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t)).2.2.2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  iexists _; iexact H4

set_option maxHeartbeats 16000000 in
theorem sound_C (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [show (dats m 0 c).leavesExact 4 t = owns (c : Thread nD τ) (ms0_4 t) fullShare ((dats m 0 c).after 4 t) from by
    unfold Dat.leavesExact; rw [liveAt0_4 t ((hcond0_1 t).mpr h1)], after0_4]
  rw [outsAt0_C m c t h0 h1]
  unfold caseC readBack; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).2.2.2.2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (View.cover_of_tiledL _ S1024.size (by sl_kernel_rfl))

set_option maxHeartbeats 16000000 in
theorem sound_B (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, after0_0, leaves0_1, after0_1, leaves0_2, after0_2, leaves0_3, after0_3]
  rw [Dat.leavesExact_idle (dats m 0 c) 4 t (idleAt0_4 t (fun h => h1 ((hcond0_1 t).mp h))) (noFlush0_4 t (fun h => h1 ((hcond0_1 t).mp h)))]
  rw [outsAt0_B m c t h0 h1]
  unfold caseB readBack; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2).2.2.2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (View.cover_of_tiledL _ S1024x1.size (by sl_kernel_rfl))
      isplitl [HS1]
      · unfold owns; iexists _; isplitr
        swap; · iexact HS1
        ipureintro; exact View.read_writes_of_cover _ _ _ _ _ (View.cover_of_tiledL _ S1024x1.size (by sl_kernel_rfl))
      isplitl [HS2]
      · unfold owns; iexists _; isplitr
        swap; · iexact HS2
        ipureintro; exact View.read_writes_of_cover _ _ _ _ _ (View.cover_of_tiledL _ S1024x1.size (by sl_kernel_rfl))
      isplitl [HS3]
      · unfold owns; iexists _; isplitr
        swap; · iexact HS3
        ipureintro; exact View.read_writes_of_cover _ _ _ _ _ (View.cover_of_tiledL _ S1024x1.size (by sl_kernel_rfl))
      isplitl [HS4]
      · unfold owns; iexists _; isplitr
        swap; · iexact HS4
        ipureintro; exact View.read_writes_of_cover _ _ _ _ _ (View.cover_of_tiledL _ S1024x1.size (by sl_kernel_rfl))
      unfold owns; iexists _; isplitr
      swap; · iexact HS5
      ipureintro; exact View.read_writes_of_cover _ _ _ _ _ (View.cover_of_tiledL _ S1024x1.size (by sl_kernel_rfl))
    iexact Hg
  isplitl [Ho]; · iexact Ho
  isplitl [H0]; · iexact H0
  isplitl [H1]; · iexact H1
  isplitl [H2]; · iexact H2
  isplitl [H3]; · iexact H3
  iexists _; iexact H4

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0
  · by_cases h1 : t.val % 32 = 31
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_any m c _

end Cert.KernelIdeal.Hand

end
-- ==== Proof.KI.Launch.lean ====
import proofs.«130313_j69320772158193_1_alg».proof.Proof.KI.Body
import Idealize.ShloMosaic.Lib.Pipeline.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

def tailVal (o : (⟨S8192, .f32⟩ : BufTy).Contents (Elt F)) : (⟨S_, .f32⟩ : BufTy).Contents (Elt F) :=
  mulf (Host.divf (Host.reduceAdd o (constant S_ .f32 0x00000000#32) reducesTo_S8192_S_d0 h_S_) (constant S_ .f32 0x46000000#32)) (constant S_ .f32 0x3F800000#32)

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := StableHlo.after hostOps0_1 (W1 m c)

theorem W2_eq (c : Dev nD) : W2 m c = V0 m c := rfl

open Classical in
def W3 (c : Dev nD) : Valuation τ sig (Elt F) := fun b =>
  if h : Proc.devRef .tc main_v8 = b then
    cast (congrArg (fun b' : DevRef τ sig => b'.ty.Contents (Elt F)) h) ((dats m 0 c).arrAt 4 cfg0.N)
  else W2 m c b

theorem W3_out (c : Dev nD) : W3 m c (Proc.devRef .tc main_v8) = (dats m 0 c).arrAt 4 cfg0.N := by
  unfold W3; rw [dif_pos rfl]; rfl

theorem W3_of_ne (c : Dev nD) (b : Ref sig .tc) (hb : main_v8 ≠ b) : W3 m c (Proc.devRef .tc b) = W2 m c (Proc.devRef .tc b) := by
  unfold W3; rw [dif_neg]; exact fun e => hb (Proc.devRef_injective _ e)

abbrev W4 (c : Dev nD) : Valuation τ sig (Elt F) := StableHlo.after hostOps1 (W3 m c)

theorem win_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

theorem arrs_image : Finset.univ.image (Pipeline.arrRef spec0) = ([main_v5, main_v6, main_v7, main_v8] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

theorem arrs_sub : Finset.univ.image (Pipeline.arrRef spec0) ⊆ Finset.univ.filter fun b : Ref sig .tc => ¬ b.isScoped := fun b hb => by
  obtain ⟨w, -, rfl⟩ := Finset.mem_image.mp hb
  exact Finset.mem_filter.mpr ⟨Finset.mem_univ _, by simp [winFacts₀0.arr_unscoped w]⟩

theorem ub_split (c : Dev nD) (W : (b : Ref sig .tc) → Buf (Elt F) ((c : Thread nD τ).loc b)) :
    (unscopedBufs (Ix := Unit) (Name := ℕ) (U := UR sig nD τ) (Lvl := ℕ) c W : sProp 𝕄)
      = iprop(((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8))
        ∗ Pipeline.unscopedRest spec0 c W) := by
  unfold unscopedBufs Pipeline.unscopedRest
  rw [bigSep_sdiff_split arrs_sub, bigSep_eq_bigSepL_of_eq [main_v5, main_v6, main_v7, main_v8] arrs_image (by decide)]
  rfl

theorem arrays_entry (c : Dev nD) :
    iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8) ↦{fullShare} V m c main_v8))
      ⊢ ((dats m 0 c).arrays ((dats m 0 c).arrAt · 0) : sProp 𝕄) := by
  unfold Pipeline.Dat.arrays
  rw [bigSep_W0, win_pt, win_pt, win_pt, win_pt, win_pt, share0, share1, share2, share3, share4]
  iintro ⟨H5, H6, H7, H8⟩
  ihave H5' := (pointsTo_share (PosShare.mem_left_op_right fullShare)).1 $$ H5
  icases H5' with ⟨H5l, H5r⟩
  isplitl [H5l]; · iexact H5l
  isplitl [H5r]; · iexact H5r
  isplitl [H6]; · iexact H6
  isplitl [H7]; · iexact H7
  iexact H8

theorem arrays_exit (c : Dev nD) :
    ((dats m 0 c).arrays ((dats m 0 c).arrAt · cfg0.N) : sProp 𝕄)
      ⊢ iprop((((c : Thread nD τ).loc main_v5) ↦{fullShare} V m c main_v5) ∗ (((c : Thread nD τ).loc main_v6) ↦{fullShare} V m c main_v6)
          ∗ (((c : Thread nD τ).loc main_v7) ↦{fullShare} V m c main_v7) ∗ (((c : Thread nD τ).loc main_v8) ↦{fullShare} (dats m 0 c).arrAt 4 cfg0.N)) := by
  unfold Pipeline.Dat.arrays
  rw [bigSep_W0, win_pt, win_pt, win_pt, win_pt, win_pt, share0, share1, share2, share3, share4]
  beta_reduce
  rw [(dats m 0 c).arrAt_in 0 rfl, (dats m 0 c).arrAt_in 1 rfl, (dats m 0 c).arrAt_in 2 rfl, (dats m 0 c).arrAt_in 3 rfl]
  iintro ⟨H5l, H5r, H6, H7, H8⟩
  ihave H5 := (pointsTo_share (PosShare.mem_left_op_right fullShare)).2 $$ [H5l H5r]
  · isplitl [H5l]; · iexact H5l
    iexact H5r
  isplitl [H5]; · iexact H5
  isplitl [H6]; · iexact H6
  isplitl [H7]; · iexact H7
  iexact H8

theorem entry_split (c : Dev nD) :
    (StableHlo.held (c : Thread nD τ) (Pipeline.ucRefs τ sig) (W2 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (W2 m c), ub_split]
  exact sep_mono (arrays_entry m c) .rfl

theorem exit_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (W3 m c) : sProp 𝕄) := by
  rw [← Pipeline.unscopedBufs_held c (W3 m c), ub_split]
  refine sep_mono ((arrays_exit m c).trans ?_) (Entails.of_eq ?_)
  · rw [W3_of_ne m c main_v5 (by decide), W3_of_ne m c main_v6 (by decide), W3_of_ne m c main_v7 (by decide), W3_out]
    exact .rfl
  · unfold Pipeline.unscopedRest
    exact bigSep_congr fun b hb => by
      beta_reduce
      rw [W3_of_ne m c b fun e => (Finset.mem_sdiff.mp hb).2 (e ▸ Finset.mem_image.mpr ⟨4, Finset.mem_univ _, rfl⟩)]
      rfl

abbrev adm : (p : Fin 1) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ ((dats m 0 c).Φ 0 : sProp 𝕄) := by
      have h' := hin m c; unfold Pipeline.ΦA at h'; exact h'
    iintro ⟨Hp, -, Hr⟩
    iapply h
    isplitl [Hr]; · iexact Hr
    iexact Hp
  hout c := by
    rw [Pipeline.ownSems0_none]
    have h : ((dats m 0 c).Φ (Fin.last cfg0.N) : sProp 𝕄) ⊢ iprop(Pipeline.scopedRest spec0 c ∗ ∃ r, prngReg c r) := by
      have h' := hout m c; unfold Pipeline.ΦA at h'; exact h'
    refine h.trans (show iprop(Pipeline.scopedRest spec0 c ∗ ∃ r, prngReg c r) ⊢ (iprop((∃ r, prngReg c r) ∗ emp ∗ Pipeline.scopedRest spec0 c) : sProp 𝕄) from ?_)
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (dats m) () defs₀ 𝒱₀ L lv) :=
  [ .host (hseg hostOps0 hostOps0_sub fresh0 (W0 m)),
    .host (hseg hostOps0_1 hostOps0_1_sub fresh0_1 (W1 m)),
    .region (reg0 m),
    .host (hseg hostOps1 hostOps1_sub fresh1 (W3 m)) ]

theorem main_run (c : Dev nD) : main (F := F) c = Pipeline.Seg.run (segs m) := (main_chain c).trans (by chain_rfl)

theorem W4_v11 (c : Dev nD) : W4 m c (Proc.devRef .tc main_v11) = tailVal (F := F) ((dats m 0 c).arrAt 4 cfg0.N) := by
  show StableHlo.after hostOps1 (W3 m c) (Proc.devRef .tc main_v11) = _
  dsimp only [hostOps1]
  after_results
  rw [W3_out]; rfl

theorem W4_arg0 (c : Dev nD) : W4 m c (Proc.devRef .tc main_arg0) = m ((c : Thread nD τ).loc main_arg0) := by
  show StableHlo.after hostOps1 (W3 m c) (Proc.devRef .tc main_arg0) = _
  dsimp only [hostOps1]
  after_results
  rw [W3_of_ne m c main_arg0 (by decide)]
  show StableHlo.after hostOps0_1 (StableHlo.after hostOps0 (W0 m c)) (Proc.devRef .tc main_arg0) = _
  dsimp only [hostOps0_1, hostOps0]
  after_results
theorem W4_arg1 (c : Dev nD) : W4 m c (Proc.devRef .tc main_arg1) = m ((c : Thread nD τ).loc main_arg1) := by
  show StableHlo.after hostOps1 (W3 m c) (Proc.devRef .tc main_arg1) = _
  dsimp only [hostOps1]
  after_results
  rw [W3_of_ne m c main_arg1 (by decide)]
  show StableHlo.after hostOps0_1 (StableHlo.after hostOps0 (W0 m c)) (Proc.devRef .tc main_arg1) = _
  dsimp only [hostOps0_1, hostOps0]
  after_results
theorem W4_arg2 (c : Dev nD) : W4 m c (Proc.devRef .tc main_arg2) = m ((c : Thread nD τ).loc main_arg2) := by
  show StableHlo.after hostOps1 (W3 m c) (Proc.devRef .tc main_arg2) = _
  dsimp only [hostOps1]
  after_results
  rw [W3_of_ne m c main_arg2 (by decide)]
  show StableHlo.after hostOps0_1 (StableHlo.after hostOps0 (W0 m c)) (Proc.devRef .tc main_arg2) = _
  dsimp only [hostOps0_1, hostOps0]
  after_results

set_option backward.isDefEq.respectTransparency.types false in
theorem run_main : θ_run defs (onTc (τ := τ) (main (F := F))) ⟨m, fun _ => 0, ρ⟩ (fun r => ∀ c : Dev nD,
      r.2.mem ((c.tc : Thread nD τ).loc main_v11) = tailVal (F := F) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v11 (by decide))).trans (W4_v11 m c),
       (h c _ (mem_uc main_arg0 (by decide))).trans (W4_arg0 m c),
       (h c _ (mem_uc main_arg1 (by decide))).trans (W4_arg1 m c),
       (h c _ (mem_uc main_arg2 (by decide))).trans (W4_arg2 m c)⟩)

end Cert.KernelIdeal.Hand

end
-- ==== Proof.KI.Step.lean ====
import proofs.«130313_j69320772158193_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Scr (F : FTy → Type) [FloatOps F] : Type :=
  Vec F S1024x1 .f32 × Vec F S1024x1 .f32 × Vec F S1024x1 .f32 × Vec F S1024x1 .f32 × Vec F S1024x1 .f32 × Vec F S1024x1 .f32

def resetScr : Scr F := (k0_pay7 (F := F), k0_pay8 (F := F), k0_pay9 (F := F), k0_pay10 (F := F), k0_pay11 (F := F), k0_pay12 (F := F))

abbrev tlpos (x0 : Vec F S1024x128 .bf16) (x1 : Vec F S256x128 .bf16) : FVec F S1024x256 .f32 := k0_pay14 x0 x1
abbrev tlneg (x0 : Vec F S1024x128 .bf16) (x1 : Vec F S256x128 .bf16) : FVec F S1024x256 .f32 := k0_pay15 x0 x1
abbrev tmask (x2 : Vec F S1024x1 .i32) (x3 : Vec F S1x256 .i32) : FVec F S1024x256 .f32 := k0_pay16 x2 x3
abbrev tiota : IVec S1024x256 32 := iota .tc S1024x256 32 [0] iota_S1024x256_d0_w32

def stepScr (i : grid0.Coords) (x0 : Vec F S1024x128 .bf16) (x1 : Vec F S256x128 .bf16) (x2 : Vec F S1024x1 .i32) (x3 : Vec F S1x256 .i32) (s : Scr F) : Scr F :=
  (k0_pay5 (k0_pay21 (BitVec.ofNat 32 (i 0).val) (BitVec.ofNat 32 (i 1).val) (tlpos x0 x1) (tlneg x0 x1) (tmask x2 x3) tiota 1024#32 s.1),
   k0_pay24 (BitVec.ofNat 32 (i 0).val) (BitVec.ofNat 32 (i 1).val) (tlpos x0 x1) (tlneg x0 x1) (tmask x2 x3) tiota 1024#32 s.1 s.1 s.2.1,
   k0_pay1 (k0_pay25 (BitVec.ofNat 32 (i 0).val) (BitVec.ofNat 32 (i 1).val) (tlpos x0 x1) (tlneg x0 x1) (tmask x2 x3) tiota 1024#32 s.1 s.1 s.2.2.1),
   k0_pay2 (tlpos x0 x1) (k0_pay18 (BitVec.ofNat 32 (i 0).val) (BitVec.ofNat 32 (i 1).val) (tmask x2 x3) tiota 1024#32) s.2.2.2.1,
   k0_pay3 (k0_pay18 (BitVec.ofNat 32 (i 0).val) (BitVec.ofNat 32 (i 1).val) (tmask x2 x3) tiota 1024#32) s.2.2.2.2.1,
   k0_pay4 (k0_pay19 (BitVec.ofNat 32 (i 0).val) (BitVec.ofNat 32 (i 1).val) (tmask x2 x3) tiota 1024#32) s.2.2.2.2.2)

def outOf (s : Scr F) : FVec F S1024 .f32 := k0_pay6 s.2.2.2.2.1 s.2.2.1 s.2.2.2.2.2 s.2.1 s.2.2.2.1 s.1

end Cert.KernelIdeal.Hand

end
-- ==== Proof.KI.Pieces.lean ====
import proofs.«130313_j69320772158193_1_alg».proof.Proof.KI.Frame
import proofs.«130313_j69320772158193_1_alg».proof.Proof.KI.Step
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

theorem pieceOffs2_zero : (![0, 0] : Fin 2 → Nat) = fun _ => 0 := funext fun a => by fin_cases a <;> rfl

theorem pieceOffs1_zero : (![0] : Fin 1 → Nat) = fun _ => 0 := funext fun a => by fin_cases a; rfl

section
variable (c : Dev nD) (i : grid0.Coords)
  (arg2 : Memref sig .tc .vmem S1024x128 .bf16) (harg2 : arg2.IsWhole) (arg3 : Memref sig .tc .vmem S256x128 .bf16) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)
  (x0 : Vec F S1024x128 .bf16) (x1 : Vec F S256x128 .bf16) (x2 : Vec F S1024x1 .i32) (x3 : Vec F S1x256 .i32)

/-- A first column tile leaves one step of the row recurrence taken from the reset columns. -/
theorem caseA_scr (hc0 : cond0_0 i) (hc1 : ¬cond0_1 i) :
    (caseA c i arg2 harg2 arg3 harg3 arg4 harg4 arg5 harg5 arg6 harg6 arg7 harg7 arg8 harg8 arg9 harg9 arg10 harg10 arg11 harg11 arg12 harg12 hc0 hc1 x0 x1 x2 x3).2 = stepScr i x0 x1 x2 x3 (resetScr (F := F)) := by
  unfold caseA readBack
  refine Prod.ext ?_ (Prod.ext ?_ (Prod.ext ?_ (Prod.ext ?_ (Prod.ext ?_ ?_))))
  all_goals
    dsimp only
    refine (View.read_writes_eq_canon _ _ _ (View.cover_of_tiledL _ S1024x1.size (by sl_kernel_rfl))).trans ?_
    unfold kernelRun0_A
    dsimp only
    sl_unfold_words
    rw [View.canon_cons_unit_zero (S := S1024x1) pieceOffs2_zero]
    simp only [View.readCov_unit_zero (S := S1024x1) _ pieceOffs2_zero, View.readAt_eq_ld, harg2.read_unread, harg3.read_unread, harg4.read_unread, harg5.read_unread, harg7.read_unread, harg8.read_unread, harg9.read_unread, harg10.read_unread, harg11.read_unread, harg12.read_unread, View.ld_unit_zero (S := S1024x128) pieceOffs2_zero, View.ld_unit_zero (S := S256x128) pieceOffs2_zero, View.ld_unit_zero (S := S1024x1) pieceOffs2_zero, View.ld_unit_zero (S := S1x256) pieceOffs2_zero]
    rfl

/-- A middle column tile leaves one step of the row recurrence taken from the columns it found. -/
theorem caseB_scr (hc0 : ¬cond0_0 i) (hc1 : ¬cond0_1 i) (s : Scr F) :
    (caseB c i arg2 harg2 arg3 harg3 arg4 harg4 arg5 harg5 arg6 harg6 arg7 harg7 arg8 harg8 arg9 harg9 arg10 harg10 arg11 harg11 arg12 harg12 hc0 hc1 x0 x1 x2 x3 s).2 = stepScr i x0 x1 x2 x3 s := by
  obtain ⟨xs0, xs1, xs2, xs3, xs4, xs5⟩ := s
  unfold caseB readBack
  refine Prod.ext ?_ (Prod.ext ?_ (Prod.ext ?_ (Prod.ext ?_ (Prod.ext ?_ ?_))))
  all_goals
    dsimp only
    refine (View.read_writes_eq_canon _ _ _ (View.cover_of_tiledL _ S1024x1.size (by sl_kernel_rfl))).trans ?_
    unfold kernelRun0_B
    dsimp only
    sl_unfold_words
    rw [View.canon_unit_zero pieceOffs2_zero]
    simp only [View.readAt_eq_ld, harg2.read_unread, harg3.read_unread, harg4.read_unread, harg5.read_unread, harg7.read_unread, harg8.read_unread, harg9.read_unread, harg10.read_unread, harg11.read_unread, harg12.read_unread, View.ld_unit_zero (S := S1024x128) pieceOffs2_zero, View.ld_unit_zero (S := S256x128) pieceOffs2_zero, View.ld_unit_zero (S := S1024x1) pieceOffs2_zero, View.ld_unit_zero (S := S1x256) pieceOffs2_zero]
    rfl

/-- So does a last column tile. -/
theorem caseC_scr (hc0 : ¬cond0_0 i) (hc1 : cond0_1 i) (s : Scr F) :
    (caseC c i arg2 harg2 arg3 harg3 arg4 harg4 arg5 harg5 arg6 harg6 arg7 harg7 arg8 harg8 arg9 harg9 arg10 harg10 arg11 harg11 arg12 harg12 hc0 hc1 x0 x1 x2 x3 s).2 = stepScr i x0 x1 x2 x3 s := by
  obtain ⟨xs0, xs1, xs2, xs3, xs4, xs5⟩ := s
  unfold caseC readBack
  refine Prod.ext ?_ (Prod.ext ?_ (Prod.ext ?_ (Prod.ext ?_ (Prod.ext ?_ ?_))))
  all_goals
    dsimp only
    refine (View.read_writes_eq_canon _ _ _ (View.cover_of_tiledL _ S1024x1.size (by sl_kernel_rfl))).trans ?_
    unfold kernelRun0_C
    dsimp only
    sl_unfold_words
    rw [View.canon_unit_zero pieceOffs2_zero]
    simp only [View.readAt_eq_ld, harg2.read_unread, harg3.read_unread, harg4.read_unread, harg5.read_unread, harg7.read_unread, harg8.read_unread, harg9.read_unread, harg10.read_unread, harg11.read_unread, harg12.read_unread, View.ld_unit_zero (S := S1024x128) pieceOffs2_zero, View.ld_unit_zero (S := S256x128) pieceOffs2_zero, View.ld_unit_zero (S := S1024x1) pieceOffs2_zero, View.ld_unit_zero (S := S1x256) pieceOffs2_zero]
    rfl

/-- The block a last column tile stores is the row value of the columns it leaves. -/
theorem caseC_out (hc0 : ¬cond0_0 i) (hc1 : cond0_1 i) (s : Scr F) :
    (caseC c i arg2 harg2 arg3 harg3 arg4 harg4 arg5 harg5 arg6 harg6 arg7 harg7 arg8 harg8 arg9 harg9 arg10 harg10 arg11 harg11 arg12 harg12 hc0 hc1 x0 x1 x2 x3 s).1 = outOf (stepScr i x0 x1 x2 x3 s) := by
  obtain ⟨xs0, xs1, xs2, xs3, xs4, xs5⟩ := s
  unfold caseC readBack
  dsimp only
  refine (View.read_writes_eq_canon _ _ _ (View.cover_of_tiledL _ S1024.size (by sl_kernel_rfl))).trans ?_
  unfold kernelRun0_C
  dsimp only
  sl_unfold_words
  rw [View.canon_unit_zero pieceOffs1_zero]
  simp only [View.readCov_unit_zero (S := S1024x1) _ pieceOffs2_zero, View.readAt_eq_ld, harg2.read_unread, harg3.read_unread, harg4.read_unread, harg5.read_unread, harg7.read_unread, harg8.read_unread, harg9.read_unread, harg10.read_unread, harg11.read_unread, harg12.read_unread, View.ld_unit_zero (S := S1024x128) pieceOffs2_zero, View.ld_unit_zero (S := S256x128) pieceOffs2_zero, View.ld_unit_zero (S := S1024x1) pieceOffs2_zero, View.ld_unit_zero (S := S1x256) pieceOffs2_zero]
  rfl

end

end Cert.KernelIdeal.Hand

end
-- ==== Proof.RowData.lean ====
import Idealize.ShloMosaic.PureOps.Ideal
import Mathlib.Algebra.BigOperators.Fin

noncomputable section

namespace Cert.RowData

open Idealize.ShloMosaic

abbrev cLo : EReal := Ideal.ofBits .f32 0xBF7FFFFE#32
abbrev cHi : EReal := Ideal.ofBits .f32 0x3F7FFFFE#32
abbrev cOne : EReal := Ideal.ofBits .f32 0x3F800000#32
abbrev cMargin : EReal := Ideal.ofBits .f32 0x3E99999A#32
abbrev cTwo : EReal := Ideal.ofBits .f32 0x40000000#32
abbrev cTemp : EReal := Ideal.ofBits .f32 0x3D8F5C29#32
abbrev cE6 : EReal := Ideal.ofBits .f32 0x358637BD#32
abbrev cE8 : EReal := Ideal.ofBits .f32 0x322BCC77#32
abbrev cRows : EReal := Ideal.ofBits .f32 0x46000000#32

def dotv (cn : Fin 8192 → Fin 128 → EReal) (i j : Fin 8192) : EReal := ∑ k : Fin 128, cn i k * cn j k

def cosv (d : EReal) : EReal := -(min cHi (max cLo d))

def lposv (d : EReal) : EReal := Ideal.div (cosv d - Ideal.div (cMargin * Ideal.exp (cOne - cosv d)) cTwo) cTemp
def lnegv (d : EReal) : EReal := Ideal.div (cosv d) cTemp

def posm (labr labc : Fin 8192 → BitVec 32) (i j : Fin 8192) : EReal :=
  (if labr i = labc j then 1 else 0) * (1 - (if i = j then 1 else 0))
def negm (labr labc : Fin 8192 → BitVec 32) (i j : Fin 8192) : EReal :=
  (1 - (if i = j then 1 else 0)) - posm labr labc i j

def lcomb (cn : Fin 8192 → Fin 128 → EReal) (labr labc : Fin 8192 → BitVec 32) (i j : Fin 8192) : EReal :=
  posm labr labc i j * lposv (dotv cn i j) + negm labr labc i j * lnegv (dotv cn i j)

def lposr (cn : Fin 8192 → Fin 128 → EReal) (i j : Fin 8192) : EReal := lposv (dotv cn i j)

def meanRows (r : Fin 8192 → EReal) : EReal := Ideal.div (0 + ∑ i : Fin 8192, r i) cRows

end Cert.RowData

end
-- ==== Proof.OnlineRow.lean ====
import Idealize.ShloMosaic.PureOps.Ideal
import Mathlib.Algebra.BigOperators.Fin
import Mathlib.Data.Finset.Fold

noncomputable section

namespace Cert.OnlineRow

open Idealize.ShloMosaic

def col (k : Fin 32) (l : Fin 256) : Fin 8192 := ⟨256 * k.val + l.val, by have := k.isLt; have := l.isLt; omega⟩

structure Acc where
  m : EReal
  lp : EReal
  ln : EReal
  sp : EReal
  pc : EReal
  nc : EReal

def Acc.init : Acc := ⟨⊥, 0, 0, 0, 0, 0⟩

def Acc.step (s : Acc) (a b p q : Fin 256 → EReal) : Acc :=
  { m := max s.m (Finset.univ.fold max ⊥ a)
    lp := Ideal.exp (s.m - max s.m (Finset.univ.fold max ⊥ a)) * s.lp + ∑ l, Ideal.exp (a l - max s.m (Finset.univ.fold max ⊥ a)) * p l
    ln := Ideal.exp (s.m - max s.m (Finset.univ.fold max ⊥ a)) * s.ln + ∑ l, Ideal.exp (a l - max s.m (Finset.univ.fold max ⊥ a)) * q l
    sp := s.sp + ∑ l, p l * b l
    pc := s.pc + ∑ l, p l
    nc := s.nc + ∑ l, q l }

def Acc.after (a b p q : Fin 8192 → EReal) : (n : ℕ) → n ≤ 32 → Acc
  | 0, _ => Acc.init
  | n + 1, h => (Acc.after a b p q n (Nat.le_of_succ_le h)).step
      (fun l => a (col ⟨n, h⟩ l)) (fun l => b (col ⟨n, h⟩ l)) (fun l => p (col ⟨n, h⟩ l)) (fun l => q (col ⟨n, h⟩ l))

def Acc.out (s : Acc) (e6 e8 : EReal) : EReal :=
  Ideal.div (s.sp - s.pc * (s.m + Ideal.log (s.lp + Ideal.div s.ln (s.nc + e8)))) (if s.pc < e6 then 1 else s.pc)

def rowRef (a p q : Fin 8192 → EReal) (e6 e8 : EReal) : EReal :=
  Ideal.div
    (0 + ∑ j, p j * ((a j - Finset.univ.fold max ⊥ a)
        - Ideal.log ((0 + ∑ j', Ideal.exp (a j' - Finset.univ.fold max ⊥ a) * p j')
            + Ideal.div (0 + ∑ j', Ideal.exp (a j' - Finset.univ.fold max ⊥ a) * q j') ((0 + ∑ j', q j') + e8))))
    (if (0 + ∑ j, p j) < e6 then 1 else (0 + ∑ j, p j))

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem fold_max_coe_real {ι : Type*} (s : Finset ι) (hs : s.Nonempty) (g : ι → ℝ) :
    ∃ T : ℝ, s.fold max ⊥ (fun i => (g i : EReal)) = (T : EReal) := by
  obtain ⟨i, hi⟩ := hs
  refine ⟨(s.fold max ⊥ (fun i => (g i : EReal))).toReal, (EReal.coe_toReal ?_ ?_).symm⟩
  · apply ne_of_lt
    rw [Finset.fold_max_lt]
    exact ⟨bot_lt_top, fun x _ => EReal.coe_lt_top _⟩
  · apply ne_of_gt
    rw [Finset.lt_fold_max]
    exact Or.inr ⟨i, hi, EReal.bot_lt_coe _⟩

def colEquiv : Fin 32 × Fin 256 ≃ Fin 8192 where
  toFun x := col x.1 x.2
  invFun j := (⟨j.val / 256, by have := j.isLt; omega⟩, ⟨j.val % 256, by omega⟩)
  left_inv := by
    rintro ⟨k, l⟩
    have := k.isLt; have := l.isLt
    ext <;> simp [col] <;> omega
  right_inv := by
    intro j
    ext
    simp [col]
    omega

def psum (f : Fin 8192 → ℝ) : (n : ℕ) → n ≤ 32 → ℝ
  | 0, _ => 0
  | n + 1, h => psum f n (Nat.le_of_succ_le h) + ∑ l, f (col ⟨n, h⟩ l)

def pmax (f : Fin 8192 → EReal) : (n : ℕ) → n ≤ 32 → EReal
  | 0, _ => ⊥
  | n + 1, h => max (pmax f n (Nat.le_of_succ_le h)) (Finset.univ.fold max ⊥ fun l => f (col ⟨n, h⟩ l))

theorem psum_mul_left (c : ℝ) (f : Fin 8192 → ℝ) : ∀ (n : ℕ) (h : n ≤ 32), psum (fun j => c * f j) n h = c * psum f n h
  | 0, _ => by simp [psum]
  | n + 1, h => by rw [psum, psum, psum_mul_left c f n, mul_add, Finset.mul_sum]

theorem psum_eq_sum_fin (f : Fin 8192 → ℝ) : ∀ (n : ℕ) (h : n ≤ 32),
    psum f n h = ∑ i : Fin n, ∑ l, f (col ⟨i.val, lt_of_lt_of_le i.isLt h⟩ l)
  | 0, _ => by simp [psum]
  | n + 1, h => by
    rw [psum, psum_eq_sum_fin f n]
    conv_rhs => rw [Fin.sum_univ_castSucc]
    rfl

theorem psum_all (f : Fin 8192 → ℝ) : psum f 32 (le_refl _) = ∑ j, f j := by
  rw [psum_eq_sum_fin]
  exact (Fintype.sum_prod_type' (fun k l => f (col k l))).symm.trans (Equiv.sum_comp colEquiv f)

theorem pmax_le_iff (f : Fin 8192 → EReal) (c : EReal) : ∀ (n : ℕ) (h : n ≤ 32),
    pmax f n h ≤ c ↔ ∀ k : Fin 32, k.val < n → ∀ l, f (col k l) ≤ c
  | 0, _ => by simp [pmax]
  | n + 1, h => by
    rw [pmax, max_le_iff, pmax_le_iff f c n, Finset.fold_max_le]
    constructor
    · rintro ⟨h1, -, h2⟩ k hk l
      rcases Nat.lt_succ_iff_lt_or_eq.mp hk with hk' | hk'
      · exact h1 k hk' l
      · have : k = ⟨n, h⟩ := Fin.ext hk'
        rw [this]; exact h2 l (Finset.mem_univ _)
    · intro H
      exact ⟨fun k hk l => H k (Nat.lt_succ_of_lt hk) l, bot_le, fun l _ => H ⟨n, h⟩ (Nat.lt_succ_self n) l⟩

theorem pmax_all (f : Fin 8192 → EReal) : pmax f 32 (le_refl _) = Finset.univ.fold max ⊥ f := by
  apply eq_of_forall_ge_iff
  intro c
  rw [pmax_le_iff, Finset.fold_max_le]
  constructor
  · intro H
    refine ⟨bot_le, fun j _ => ?_⟩
    have := H (colEquiv.symm j).1 (colEquiv.symm j).1.isLt (colEquiv.symm j).2
    have e : col (colEquiv.symm j).1 (colEquiv.symm j).2 = j := colEquiv.apply_symm_apply j
    rwa [e] at this
  · rintro ⟨-, H⟩ k _ l
    exact H _ (Finset.mem_univ _)

theorem step_real (s : Acc) (ta tb tp tq : Fin 256 → ℝ) (LP LN SP PC NC E M' : ℝ)
    (hlp : s.lp = LP) (hln : s.ln = LN) (hsp : s.sp = SP) (hpc : s.pc = PC) (hnc : s.nc = NC)
    (hM' : max s.m (Finset.univ.fold max ⊥ fun l => (ta l : EReal)) = M')
    (hE : Ideal.exp (s.m - (M' : EReal)) = E) :
    s.step (fun l => ta l) (fun l => tb l) (fun l => tp l) (fun l => tq l) =
      ⟨(M' : ℝ), ((E * LP + ∑ l, Real.exp (ta l - M') * tp l : ℝ) : EReal),
        ((E * LN + ∑ l, Real.exp (ta l - M') * tq l : ℝ) : EReal),
        ((SP + ∑ l, tp l * tb l : ℝ) : EReal), ((PC + ∑ l, tp l : ℝ) : EReal), ((NC + ∑ l, tq l : ℝ) : EReal)⟩ := by
  have hexp : ∀ l, Ideal.exp ((ta l : EReal) - (M' : EReal)) = ((Real.exp (ta l - M') : ℝ) : EReal) := by
    intro l; rw [← EReal.coe_sub, Ideal.exp_coe]
  simp only [Acc.step, hM', hE, hlp, hln, hsp, hpc, hnc, hexp, EReal.coe_add, EReal.coe_mul, coe_sum]

theorem after_m (a b p q : Fin 8192 → EReal) : ∀ (n : ℕ) (h : n ≤ 32), (Acc.after a b p q n h).m = pmax a n h
  | 0, _ => rfl
  | n + 1, h => by
    show max (Acc.after a b p q n (Nat.le_of_succ_le h)).m _ = _
    rw [after_m a b p q n, pmax]

theorem after_real (ra rb rp rq : Fin 8192 → ℝ) : ∀ (n : ℕ) (h : n + 1 ≤ 32), ∃ M : ℝ,
    Acc.after (fun j => ra j) (fun j => rb j) (fun j => rp j) (fun j => rq j) (n + 1) h =
      ⟨(M : ℝ), ((psum (fun j => Real.exp (ra j - M) * rp j) (n + 1) h : ℝ) : EReal),
        ((psum (fun j => Real.exp (ra j - M) * rq j) (n + 1) h : ℝ) : EReal),
        ((psum (fun j => rp j * rb j) (n + 1) h : ℝ) : EReal), ((psum rp (n + 1) h : ℝ) : EReal),
        ((psum rq (n + 1) h : ℝ) : EReal)⟩
  | 0, h => by
    obtain ⟨T, hT⟩ := fold_max_coe_real Finset.univ Finset.univ_nonempty (fun l => ra (col ⟨0, h⟩ l))
    refine ⟨T, ?_⟩
    have := step_real Acc.init (fun l => ra (col ⟨0, h⟩ l)) (fun l => rb (col ⟨0, h⟩ l)) (fun l => rp (col ⟨0, h⟩ l))
      (fun l => rq (col ⟨0, h⟩ l)) 0 0 0 0 0 0 T (by simp [Acc.init]) (by simp [Acc.init]) (by simp [Acc.init])
      (by simp [Acc.init]) (by simp [Acc.init]) (by show max (⊥ : EReal) _ = _; rw [max_eq_right bot_le]; exact hT)
      (by show Ideal.exp ((⊥ : EReal) - _) = _; rw [EReal.bot_sub, Ideal.exp_bot, EReal.coe_zero])
    simpa [Acc.after, psum] using this
  | n + 1, h => by
    obtain ⟨M, hM⟩ := after_real ra rb rp rq n (Nat.le_of_succ_le h)
    obtain ⟨T, hT⟩ := fold_max_coe_real Finset.univ Finset.univ_nonempty (fun l => ra (col ⟨n + 1, h⟩ l))
    refine ⟨max M T, ?_⟩
    have hresc : ∀ (g : Fin 8192 → ℝ), psum (fun j => Real.exp (ra j - max M T) * g j) (n + 1) (Nat.le_of_succ_le h)
        = Real.exp (M - max M T) * psum (fun j => Real.exp (ra j - M) * g j) (n + 1) (Nat.le_of_succ_le h) := by
      intro g
      rw [← psum_mul_left]
      congr 1
      funext j
      rw [← mul_assoc, ← Real.exp_add]
      congr 2
      ring
    have := step_real (Acc.after (fun j => ra j) (fun j => rb j) (fun j => rp j) (fun j => rq j) (n + 1) (Nat.le_of_succ_le h))
      (fun l => ra (col ⟨n + 1, h⟩ l)) (fun l => rb (col ⟨n + 1, h⟩ l)) (fun l => rp (col ⟨n + 1, h⟩ l))
      (fun l => rq (col ⟨n + 1, h⟩ l)) _ _ _ _ _ (Real.exp (M - max M T)) (max M T)
      (by rw [hM]) (by rw [hM]) (by rw [hM]) (by rw [hM]) (by rw [hM])
      (by rw [hM, hT]; exact (EReal.coe_strictMono.monotone.map_max).symm) (by rw [hM]; show Ideal.exp ((M : EReal) - _) = _; rw [← EReal.coe_sub, Ideal.exp_coe])
    have e : ∀ f : Fin 8192 → ℝ, psum f (n + 1 + 1) h
        = psum f (n + 1) (Nat.le_of_succ_le h) + ∑ l, f (col ⟨n + 1, h⟩ l) := fun f => rfl
    simp only [e, hresc]
    exact this

theorem online_eq_direct_real (ra rb rp rq : Fin 8192 → ℝ) (r6 r8 : ℝ)
    (hp : ∀ j, rp j = 0 ∨ rp j = 1) (hq : ∀ j, rq j = 0 ∨ rq j = 1)
    (hpab : ∀ j, rp j * ra j = rp j * rb j) (hne : ∃ j, rp j = 1 ∨ rq j = 1) (h8 : 0 < r8) :
    (Acc.after (fun j => ra j) (fun j => rb j) (fun j => rp j) (fun j => rq j) 32 (le_refl _)).out r6 r8
      = rowRef (fun j => ra j) (fun j => rp j) (fun j => rq j) r6 r8 := by
  obtain ⟨M, hM⟩ := after_real ra rb rp rq 31 (le_refl _)
  have hM' : Acc.after (fun j => (ra j : EReal)) (fun j => rb j) (fun j => rp j) (fun j => rq j) 32 (le_refl _) =
      ⟨(M : ℝ), ((psum (fun j => Real.exp (ra j - M) * rp j) 32 (le_refl _) : ℝ) : EReal),
        ((psum (fun j => Real.exp (ra j - M) * rq j) 32 (le_refl _) : ℝ) : EReal),
        ((psum (fun j => rp j * rb j) 32 (le_refl _) : ℝ) : EReal), ((psum rp 32 (le_refl _) : ℝ) : EReal),
        ((psum rq 32 (le_refl _) : ℝ) : EReal)⟩ := hM
  have hfold : Finset.univ.fold max ⊥ (fun j => (ra j : EReal)) = (M : EReal) := by
    rw [← pmax_all, ← after_m (fun j => ra j) (fun j => rb j) (fun j => rp j) (fun j => rq j) 32 (le_refl _), hM']
  have hp0 : ∀ j, 0 ≤ rp j := fun j => by rcases hp j with h | h <;> rw [h] <;> norm_num
  have hq0 : ∀ j, 0 ≤ rq j := fun j => by rcases hq j with h | h <;> rw [h] <;> norm_num
  have hexp : ∀ j, Ideal.exp ((ra j : EReal) - (M : EReal)) = ((Real.exp (ra j - M) : ℝ) : EReal) := fun j => by
    rw [← EReal.coe_sub, Ideal.exp_coe]
  simp only [Acc.out, rowRef, hM', psum_all, hfold, zero_add, hexp, ← EReal.coe_mul, ← coe_sum]
  have hEP0 : 0 ≤ ∑ j, Real.exp (ra j - M) * rp j :=
    Finset.sum_nonneg fun j _ => mul_nonneg (Real.exp_pos _).le (hp0 j)
  have hEN0 : 0 ≤ ∑ j, Real.exp (ra j - M) * rq j :=
    Finset.sum_nonneg fun j _ => mul_nonneg (Real.exp_pos _).le (hq0 j)
  have hNC0 : 0 ≤ ∑ j, rq j := Finset.sum_nonneg fun j _ => hq0 j
  have hNC8 : 0 < (∑ j, rq j) + r8 := by linarith
  have hpos : 0 < (∑ j, Real.exp (ra j - M) * rp j)
      + (∑ j, Real.exp (ra j - M) * rq j) * (1 / ((∑ j, rq j) + r8)) := by
    obtain ⟨j0, hj0⟩ := hne
    rcases hj0 with h | h
    · have h1 : 0 < ∑ j, Real.exp (ra j - M) * rp j :=
        Finset.sum_pos' (fun j _ => mul_nonneg (Real.exp_pos _).le (hp0 j))
          ⟨j0, Finset.mem_univ _, by rw [h, mul_one]; exact Real.exp_pos _⟩
      have h2 : 0 ≤ (∑ j, Real.exp (ra j - M) * rq j) * (1 / ((∑ j, rq j) + r8)) :=
        mul_nonneg hEN0 (one_div_pos.mpr hNC8).le
      linarith
    · have h1 : 0 < ∑ j, Real.exp (ra j - M) * rq j :=
        Finset.sum_pos' (fun j _ => mul_nonneg (Real.exp_pos _).le (hq0 j))
          ⟨j0, Finset.mem_univ _, by rw [h, mul_one]; exact Real.exp_pos _⟩
      have h2 : 0 < (∑ j, Real.exp (ra j - M) * rq j) * (1 / ((∑ j, rq j) + r8)) :=
        mul_pos h1 (one_div_pos.mpr hNC8)
      linarith
  generalize (∑ j, Real.exp (ra j - M) * rp j) = EP at *
  generalize (∑ j, Real.exp (ra j - M) * rq j) = EN at *
  generalize (∑ j, rq j) = NC at *
  rw [← EReal.coe_add NC r8, Ideal.div_coe hNC8.ne', ← EReal.coe_mul, ← EReal.coe_add, Ideal.log_coe,
    if_neg (not_le.mpr hpos)]
  generalize Real.log (EP + EN * (1 / (NC + r8))) = L
  refine congrArg₂ Ideal.div ?_ rfl
  simp only [← EReal.coe_add, ← EReal.coe_sub, ← EReal.coe_mul, ← coe_sum]
  rw [EReal.coe_eq_coe_iff]
  rw [Finset.sum_mul, ← Finset.sum_sub_distrib]
  refine Finset.sum_congr rfl fun j _ => ?_
  linear_combination (-1 : ℝ) * hpab j

theorem online_eq_direct (a b p q : Fin 8192 → EReal) (e6 e8 : EReal)
    (ha : ∀ j, ∃ r : ℝ, a j = (r : EReal)) (hb : ∀ j, ∃ r : ℝ, b j = (r : EReal))
    (hp : ∀ j, p j = 0 ∨ p j = 1) (hq : ∀ j, q j = 0 ∨ q j = 1)
    (hpab : ∀ j, p j * a j = p j * b j)
    (hne : ∃ j, p j = 1 ∨ q j = 1)
    (he6 : ∃ r : ℝ, 0 < r ∧ e6 = (r : EReal)) (he8 : ∃ r : ℝ, 0 < r ∧ e8 = (r : EReal)) :
    (Acc.after a b p q 32 (le_refl _)).out e6 e8 = rowRef a p q e6 e8 := by
  choose ra hra using ha
  choose rb hrb using hb
  obtain ⟨r6, -, rfl⟩ := he6
  obtain ⟨r8, h8, rfl⟩ := he8
  have hpr : ∀ j, p j = ((p j).toReal : EReal) := fun j => by
    rcases hp j with h | h <;> rw [h] <;> simp
  have hqr : ∀ j, q j = ((q j).toReal : EReal) := fun j => by
    rcases hq j with h | h <;> rw [h] <;> simp
  obtain rfl : a = fun j => (ra j : EReal) := funext hra
  obtain rfl : b = fun j => (rb j : EReal) := funext hrb
  obtain ⟨rp, rfl⟩ : ∃ rp : Fin 8192 → ℝ, p = fun j => (rp j : EReal) := ⟨fun j => (p j).toReal, funext hpr⟩
  obtain ⟨rq, rfl⟩ : ∃ rq : Fin 8192 → ℝ, q = fun j => (rq j : EReal) := ⟨fun j => (q j).toReal, funext hqr⟩
  beta_reduce at hp hq hpab hne
  refine online_eq_direct_real ra rb rp rq r6 r8 ?_ ?_ ?_ ?_ h8
  · intro j; rcases hp j with h | h
    · left; exact_mod_cast h
    · right; exact_mod_cast h
  · intro j; rcases hq j with h | h
    · left; exact_mod_cast h
    · right; exact_mod_cast h
  · intro j; have := hpab j; exact_mod_cast this
  · obtain ⟨j, hj⟩ := hne
    refine ⟨j, ?_⟩
    rcases hj with h | h
    · left; exact_mod_cast h
    · right; exact_mod_cast h

end Cert.OnlineRow

end
-- ==== Proof.Consts.lean ====
import proofs.«130313_j69320772158193_1_alg».proof.Proof.RowData

noncomputable section

namespace Cert.Consts

open Idealize.ShloMosaic Cert.RowData

theorem cOne_eq_one : cOne = 1 := by
  simp [Ideal.ofBits, Ideal.ieee, -EReal.coe_mul]; norm_num

theorem negInf_eq : Ideal.ofBits .f32 0xFF800000#32 = (⊥ : EReal) := by
  simp [Ideal.ofBits, Ideal.ieee]

theorem posInf_eq : Ideal.ofBits .f32 0x7F800000#32 = (⊤ : EReal) := by
  simp [Ideal.ofBits, Ideal.ieee]

theorem zero_eq : Ideal.ofBits .f32 0x00000000#32 = (0 : EReal) := by
  simp [Ideal.ofBits, Ideal.ieee]

theorem cLo_real : ∃ r : ℝ, cLo = (r : EReal) := by
  simp only [cLo, Ideal.ofBits, Ideal.ieee]
  simp [-EReal.coe_mul, -EReal.coe_neg]

theorem cHi_real : ∃ r : ℝ, cHi = (r : EReal) := by
  simp only [cHi, Ideal.ofBits, Ideal.ieee]
  simp [-EReal.coe_mul, -EReal.coe_neg]

theorem cMargin_real : ∃ r : ℝ, cMargin = (r : EReal) := by
  simp only [cMargin, Ideal.ofBits, Ideal.ieee]
  simp [-EReal.coe_mul, -EReal.coe_neg]

theorem cTwo_real : ∃ r : ℝ, r ≠ 0 ∧ cTwo = (r : EReal) := by
  simp only [cTwo, Ideal.ofBits, Ideal.ieee]
  simp [-EReal.coe_mul, -EReal.coe_neg]

theorem cTemp_real : ∃ r : ℝ, r ≠ 0 ∧ cTemp = (r : EReal) := by
  simp only [cTemp, Ideal.ofBits, Ideal.ieee]
  simp [-EReal.coe_mul, -EReal.coe_neg]

theorem cE6_real : ∃ r : ℝ, 0 < r ∧ cE6 = (r : EReal) := by
  simp only [cE6, Ideal.ofBits, Ideal.ieee]
  simp [-EReal.coe_mul, -EReal.coe_neg]

theorem cE8_real : ∃ r : ℝ, 0 < r ∧ cE8 = (r : EReal) := by
  simp only [cE8, Ideal.ofBits, Ideal.ieee]
  simp [-EReal.coe_mul, -EReal.coe_neg]

theorem cEps_real : ∃ r : ℝ, 0 < r ∧ Ideal.ofBits .f32 0x2B8CBCCC#32 = (r : EReal) := by
  simp only [Ideal.ofBits, Ideal.ieee]
  simp [-EReal.coe_mul, -EReal.coe_neg]

theorem cRows_real : ∃ r : ℝ, r ≠ 0 ∧ cRows = (r : EReal) := by
  simp only [cRows, Ideal.ofBits, Ideal.ieee]
  simp [-EReal.coe_mul, -EReal.coe_neg]

end Cert.Consts

end
-- ==== Proof.KI.StepIdeal.lean ====
import proofs.«130313_j69320772158193_1_alg».proof.Proof.KI.Step
import proofs.«130313_j69320772158193_1_alg».proof.Proof.RowData
import proofs.«130313_j69320772158193_1_alg».proof.Proof.OnlineRow
import proofs.«130313_j69320772158193_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx Cert.RowData Cert.OnlineRow

def rowOf (bi : Fin 8) (r : Fin 1024) : Fin 8192 := ⟨1024 * bi.val + r.val, by have := bi.isLt; have := r.isLt; omega⟩

def Repr (s : Scr Ideal) (acc : Fin 1024 → Acc) : Prop :=
  ∀ r : Fin 1024, s.1 (ix2 r (0 : Fin 1)) = (acc r).m ∧ s.2.1 (ix2 r (0 : Fin 1)) = (acc r).lp ∧ s.2.2.1 (ix2 r (0 : Fin 1)) = (acc r).ln
    ∧ s.2.2.2.1 (ix2 r (0 : Fin 1)) = (acc r).sp ∧ s.2.2.2.2.1 (ix2 r (0 : Fin 1)) = (acc r).pc ∧ s.2.2.2.2.2 (ix2 r (0 : Fin 1)) = (acc r).nc

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem broadcastTo_a1_ab_apply {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

end Layout

theorem lift_row (r : Fin 1024) (l : Fin 256) :
    reduces_S1024x256_S1024.lift (ix1 r) l = ix2 r l := by
  funext c
  match c with
  | ⟨0, _⟩ => rfl
  | ⟨1, _⟩ => rfl

theorem lhs_tile_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_tile_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_tile_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_tile_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

theorem matmul_tile_apply (a : FVec Ideal S1024x128 .bf16) (b : FVec Ideal S128x256 .bf16) (r : Fin 1024) (l : Fin 256) :
    matmul dot_S1024x128_S128x256_S1024x256_1_0_0_1_n_n none a b (constant (F := Ideal) S1024x256 .f32 0x00000000#32) (ix2 r l)
      = ∑ k : Fin 128, a (ix2 r k) * b (ix2 k l) := by
  show FloatOps.matmul dot_S1024x128_S128x256_S1024x256_1_0_0_1_n_n none a b (constant (F := Ideal) S1024x256 .f32 0x00000000#32) (ix2 r l) = _
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 r l) ((ValueIdx.contrEquiv1 dot_S1024x128_S128x256_S1024x256_1_0_0_1_n_n 128 rfl rfl).symm k) = ix2 r k := funext fun a => Fin.ext (by
    match a with
    | ⟨0, _⟩ => exact lhs_tile_0 _ _
    | ⟨1, _⟩ => exact (lhs_tile_1 _ _).trans hk)
  have er : dot_S1024x128_S128x256_S1024x256_1_0_0_1_n_n.rhsIdx (ix2 r l) ((ValueIdx.contrEquiv1 dot_S1024x128_S128x256_S1024x256_1_0_0_1_n_n 128 rfl rfl).symm k) = ix2 k l := funext fun a => Fin.ext (by
    match a with
    | ⟨0, _⟩ => exact (rhs_tile_0 _ _).trans hk
    | ⟨1, _⟩ => exact rhs_tile_1 _ _)
  rw [el, er]

theorem pay13_apply (x0 : Vec Ideal S1024x128 .bf16) (x1 : Vec Ideal S256x128 .bf16) (r : Fin 1024) (l : Fin 256) :
    k0_pay13 x0 x1 (ix2 r l) = cosv (∑ k : Fin 128, x0 (ix2 r k) * x1 (ix2 l k)) := by
  unfold k0_pay13
  dsimp only
  rw [subf_apply, minimumf_apply, maximumf_apply, broadcast_apply, broadcast_apply, broadcast_apply, matmul_tile_apply,
    shapeCast_self, shapeCast_self]
  have e : ∀ k : Fin 128, transpose S128x256 [1, 0] x1 transposes_S256x128_p1_0_S128x256 (ix2 k l) = x1 (ix2 l k) :=
    fun k => transpose_ix2_apply x1 _ k l
  simp only [e, Ideal.ofBits_def, Cert.Consts.zero_eq]
  unfold cosv
  rw [sub_eq_add_neg, zero_add]

theorem pay14_apply (x0 : Vec Ideal S1024x128 .bf16) (x1 : Vec Ideal S256x128 .bf16) (r : Fin 1024) (l : Fin 256) :
    k0_pay14 x0 x1 (ix2 r l) = lposv (∑ k : Fin 128, x0 (ix2 r k) * x1 (ix2 l k)) := by
  unfold k0_pay14
  show Ideal.div (k0_pay13 x0 x1 (ix2 r l) - Ideal.div (cMargin * Ideal.exp (cOne - k0_pay13 x0 x1 (ix2 r l))) cTwo) cTemp = _
  rw [pay13_apply]
  rfl

theorem pay15_apply (x0 : Vec Ideal S1024x128 .bf16) (x1 : Vec Ideal S256x128 .bf16) (r : Fin 1024) (l : Fin 256) :
    k0_pay15 x0 x1 (ix2 r l) = lnegv (∑ k : Fin 128, x0 (ix2 r k) * x1 (ix2 l k)) := by
  unfold k0_pay15
  show Ideal.div (k0_pay13 x0 x1 (ix2 r l)) cTemp = _
  rw [pay13_apply]
  rfl

theorem sitofp_bit (b : BitVec 1) :
    (FloatOps.sitofp (F := Ideal) FTy.f32 (b.setWidth 32) : EReal) = if b = 1#1 then 1 else 0 := by
  rcases BitVec.eq_zero_or_eq_one b with h | h <;> subst h
  · show (((BitVec.toInt (BitVec.setWidth 32 0#1) : ℤ) : ℝ) : EReal) = _
    rw [if_neg (by decide), show BitVec.toInt (BitVec.setWidth 32 0#1) = 0 by decide]
    simp
  · show (((BitVec.toInt (BitVec.setWidth 32 1#1) : ℤ) : ℝ) : EReal) = _
    rw [if_pos rfl, show BitVec.toInt (BitVec.setWidth 32 1#1) = 1 by decide]
    simp

theorem cmpi_eq_one (a b : BitVec 32) : IntOp.cmpi .eq a b = 1#1 ↔ a = b := by
  show BitVec.ofBool (a == b) = 1#1 ↔ a = b
  by_cases h : a = b
  · simp [h]
  · have e : (a == b) = false := by simpa using h
    rw [e]
    simpa using h

theorem pay16_apply (x2 : Vec Ideal S1024x1 .i32) (x3 : Vec Ideal S1x256 .i32) (r : Fin 1024) (l : Fin 256) :
    k0_pay16 (F := Ideal) x2 x3 (ix2 r l) = if x2 (ix2 r (0 : Fin 1)) = x3 (ix2 (0 : Fin 1) l) then 1 else 0 := by
  unfold k0_pay16
  rw [sitofp_apply, extui_apply, sitofp_bit]
  show (if IntOp.cmpi .eq (broadcastTo S1024x256 (shapeCast S1024x1 x2 shapeCasts_S1024x1_S1024x1) broadcasts_S1024x1_S1024x256 (ix2 r l))
      (broadcastTo S1024x256 (shapeCast S1x256 x3 shapeCasts_S1x256_S1x256) broadcasts_S1x256_S1024x256 (ix2 r l)) = 1#1 then (1 : EReal) else 0) = _
  rw [broadcastTo_a1_ab_apply (by decide), broadcastTo_1b_ab_apply, shapeCast_self, shapeCast_self]
  simp only [cmpi_eq_one]

theorem diag_word (bi : Fin 8) (bj : Fin 32) (r : Fin 1024) (l : Fin 256) :
    (BitVec.ofNat 32 r.val + BitVec.ofNat 32 bi.val * 1024#32 = BitVec.ofNat 32 l.val + BitVec.ofNat 32 bj.val * 256#32)
      ↔ rowOf bi r = col bj l := by
  have := bi.isLt; have := bj.isLt; have := r.isLt; have := l.isLt
  rw [← BitVec.toNat_inj, Fin.ext_iff]
  simp only [BitVec.toNat_add, BitVec.toNat_mul, BitVec.toNat_ofNat, rowOf, col, Nat.reducePow]
  omega

theorem pay17_apply (bi : Fin 8) (bj : Fin 32) (r : Fin 1024) (l : Fin 256) :
    k0_pay17 (F := Ideal) (BitVec.ofNat 32 bi.val) (BitVec.ofNat 32 bj.val) tiota 1024#32 (ix2 r l)
      = 1 - (if rowOf bi r = col bj l then 1 else 0) := by
  unfold k0_pay17
  dsimp only
  rw [subf_apply, broadcast_apply, sitofp_apply, extui_apply, sitofp_bit]
  show cOne - (if IntOp.cmpi .eq
      (IntOp.addi (iota .tc S1024x256 32 [0] iota_S1024x256_d0_w32 (ix2 r l)) (BitVec.ofNat 32 bi.val * 1024#32))
      (IntOp.addi (iota .tc S1024x256 32 [1] iota_S1024x256_d1_w32 (ix2 r l)) (BitVec.ofNat 32 bj.val * 256#32)) = 1#1 then (1 : EReal) else 0) = _
  rw [iota_single_apply, iota_single_apply, Cert.Consts.cOne_eq_one]
  show 1 - (if IntOp.cmpi .eq (BitVec.ofNat 32 r.val + BitVec.ofNat 32 bi.val * 1024#32)
      (BitVec.ofNat 32 l.val + BitVec.ofNat 32 bj.val * 256#32) = 1#1 then (1 : EReal) else 0) = _
  simp only [cmpi_eq_one, diag_word]

theorem rowmax_apply (src : FVec Ideal S1024x256 .f32) (hφ : FKind.Formats .f32)
    (hacc : (0xFF800000#32 : BitVec 32) = FKind.maximumf.neutral .f32 hφ) (r : Fin 1024) (u : Fin 1) :
    shapeCast S1024x1 (multiReduction (F := Ideal) .maximumf [1] S1024 src 0xFF800000#32 reduces_S1024x256_S1024 hφ hacc)
        shapeCasts_S1024_S1024x1 (ix2 r u)
      = Finset.univ.fold max ⊥ (fun l : Fin 256 => src (ix2 r l)) := by
  rw [shapeCast_a_a1_apply]
  refine (Ideal.multiReduction_maximumf_single src _ reduces_S1024x256_S1024 hφ hacc (ix1 r)).trans ?_
  show Finset.univ.fold max (Ideal.ofBits .f32 0xFF800000#32) (src ∘ reduces_S1024x256_S1024.lift (ix1 r)) = _
  rw [Cert.Consts.negInf_eq]
  have e : src ∘ reduces_S1024x256_S1024.lift (ix1 r) = fun l : Fin 256 => src (ix2 r l) :=
    funext fun l => congrArg src (lift_row r l)
  rw [e]
  rfl

theorem rowsum_apply (src : FVec Ideal S1024x256 .f32) (hφ : FKind.Formats .f32)
    (hacc : (0x00000000#32 : BitVec 32) = FKind.add.neutral .f32 hφ) (r : Fin 1024) (u : Fin 1) :
    shapeCast S1024x1 (multiReduction (F := Ideal) .add [1] S1024 src 0x00000000#32 reduces_S1024x256_S1024 hφ hacc)
        shapeCasts_S1024_S1024x1 (ix2 r u)
      = ∑ l : Fin 256, src (ix2 r l) := by
  rw [shapeCast_a_a1_apply]
  refine (Ideal.multiReduction_add_single src _ reduces_S1024x256_S1024 hφ hacc (ix1 r)).trans ?_
  show ∑ l : Fin 256, src (reduces_S1024x256_S1024.lift (ix1 r) l) = _
  exact Finset.sum_congr rfl fun l _ => congrArg src (lift_row r l)

section Update
variable (a0 a1 : BitVec 32) (v24 v26 v35 : FVec Ideal S1024x256 .f32) (v36 : IVec S1024x256 32) (c : BitVec 32)
  (v56 v58 v64 : Vec Ideal S1024x1 .f32)

theorem pay18_apply (j : S1024x256.Idx) :
    k0_pay18 a0 a1 v35 v36 c j = v35 j * k0_pay17 (F := Ideal) a0 a1 v36 c j := rfl

theorem pay19_apply (j : S1024x256.Idx) :
    k0_pay19 a0 a1 v35 v36 c j = k0_pay17 (F := Ideal) a0 a1 v36 c j - k0_pay18 a0 a1 v35 v36 c j := rfl

theorem pay20_apply (j : S1024x256.Idx) :
    k0_pay20 a0 a1 v24 v26 v35 v36 c j = k0_pay18 a0 a1 v35 v36 c j * v24 j + k0_pay19 a0 a1 v35 v36 c j * v26 j := rfl

theorem pay21_apply (r : Fin 1024) :
    k0_pay21 a0 a1 v24 v26 v35 v36 c v56 (ix2 r (0 : Fin 1))
      = max (v56 (ix2 r (0 : Fin 1))) (Finset.univ.fold max ⊥ (fun l : Fin 256 => k0_pay20 a0 a1 v24 v26 v35 v36 c (ix2 r l))) := by
  unfold k0_pay21
  exact congrArg (max (v56 (ix2 r (0 : Fin 1)))) (rowmax_apply _ _ _ r 0)

theorem pay22_apply (r : Fin 1024) :
    k0_pay22 a0 a1 v24 v26 v35 v36 c v56 v58 (ix2 r (0 : Fin 1))
      = Ideal.exp (v58 (ix2 r (0 : Fin 1)) - k0_pay21 a0 a1 v24 v26 v35 v36 c v56 (ix2 r (0 : Fin 1))) := rfl

theorem pay23_apply (r : Fin 1024) (l : Fin 256) :
    k0_pay23 a0 a1 v24 v26 v35 v36 c v56 (ix2 r l)
      = Ideal.exp (k0_pay20 a0 a1 v24 v26 v35 v36 c (ix2 r l) - k0_pay21 a0 a1 v24 v26 v35 v36 c v56 (ix2 r (0 : Fin 1))) := by
  unfold k0_pay23
  show Ideal.exp (k0_pay20 a0 a1 v24 v26 v35 v36 c (ix2 r l)
    - broadcastTo S1024x256 (k0_pay21 a0 a1 v24 v26 v35 v36 c v56) broadcasts_S1024x1_S1024x256 (ix2 r l)) = _
  rw [broadcastTo_a1_ab_apply (by decide)]

theorem pay24_apply (r : Fin 1024) :
    k0_pay24 a0 a1 v24 v26 v35 v36 c v56 v58 v64 (ix2 r (0 : Fin 1))
      = k0_pay22 a0 a1 v24 v26 v35 v36 c v56 v58 (ix2 r (0 : Fin 1)) * v64 (ix2 r (0 : Fin 1))
        + ∑ l : Fin 256, k0_pay23 a0 a1 v24 v26 v35 v36 c v56 (ix2 r l) * k0_pay18 a0 a1 v35 v36 c (ix2 r l) := by
  unfold k0_pay24
  dsimp only
  rw [shapeCast_self]
  exact congrArg (k0_pay22 a0 a1 v24 v26 v35 v36 c v56 v58 (ix2 r (0 : Fin 1)) * v64 (ix2 r (0 : Fin 1)) + ·) (rowsum_apply _ _ _ r 0)

theorem pay25_apply (r : Fin 1024) :
    k0_pay1 (k0_pay25 a0 a1 v24 v26 v35 v36 c v56 v58 v64) (ix2 r (0 : Fin 1))
      = k0_pay22 a0 a1 v24 v26 v35 v36 c v56 v58 (ix2 r (0 : Fin 1)) * v64 (ix2 r (0 : Fin 1))
        + ∑ l : Fin 256, k0_pay23 a0 a1 v24 v26 v35 v36 c v56 (ix2 r l) * k0_pay19 a0 a1 v35 v36 c (ix2 r l) := by
  unfold k0_pay1 k0_pay25
  dsimp only
  rw [shapeCast_self]
  exact congrArg (k0_pay22 a0 a1 v24 v26 v35 v36 c v56 v58 (ix2 r (0 : Fin 1)) * v64 (ix2 r (0 : Fin 1)) + ·) (rowsum_apply _ _ _ r 0)

end Update

theorem pay2_apply (v24 v49 : FVec Ideal S1024x256 .f32) (v82 : Vec Ideal S1024x1 .f32) (r : Fin 1024) :
    k0_pay2 v24 v49 v82 (ix2 r (0 : Fin 1)) = v82 (ix2 r (0 : Fin 1)) + ∑ l : Fin 256, v49 (ix2 r l) * v24 (ix2 r l) := by
  unfold k0_pay2
  dsimp only
  rw [shapeCast_self]
  exact congrArg (v82 (ix2 r (0 : Fin 1)) + ·) (rowsum_apply _ _ _ r 0)

theorem pay3_apply (v49 : FVec Ideal S1024x256 .f32) (v90 : Vec Ideal S1024x1 .f32) (r : Fin 1024) :
    k0_pay3 v49 v90 (ix2 r (0 : Fin 1)) = v90 (ix2 r (0 : Fin 1)) + ∑ l : Fin 256, v49 (ix2 r l) := by
  unfold k0_pay3
  dsimp only
  rw [shapeCast_self]
  exact congrArg (v90 (ix2 r (0 : Fin 1)) + ·) (rowsum_apply _ _ _ r 0)

theorem pay4_apply (v50 : FVec Ideal S1024x256 .f32) (v97 : Vec Ideal S1024x1 .f32) (r : Fin 1024) :
    k0_pay4 v50 v97 (ix2 r (0 : Fin 1)) = v97 (ix2 r (0 : Fin 1)) + ∑ l : Fin 256, v50 (ix2 r l) := by
  unfold k0_pay4
  dsimp only
  rw [shapeCast_self]
  exact congrArg (v97 (ix2 r (0 : Fin 1)) + ·) (rowsum_apply _ _ _ r 0)

theorem pay5_eq (v57 : FVec Ideal S1024x1 .f32) : k0_pay5 v57 = v57 := by
  unfold k0_pay5
  exact shapeCast_self _ _

theorem select_olt {α : Type} (x y : EReal) (a b : α) :
    Scalar.select (Ideal.cmp .olt x y) a b = if x < y then a else b := by
  unfold Scalar.select Ideal.cmp
  by_cases h : x < y
  · simp [h]
  · simp [h]

theorem pay6_apply (pc ln nc lp sp m : Vec Ideal S1024x1 .f32) (r : Fin 1024) :
    k0_pay6 pc ln nc lp sp m (ix1 r)
      = Ideal.div (sp (ix2 r (0 : Fin 1)) - pc (ix2 r (0 : Fin 1)) * (m (ix2 r (0 : Fin 1))
          + Ideal.log (lp (ix2 r (0 : Fin 1)) + Ideal.div (ln (ix2 r (0 : Fin 1))) (nc (ix2 r (0 : Fin 1)) + cE8))))
        (if pc (ix2 r (0 : Fin 1)) < cE6 then 1 else pc (ix2 r (0 : Fin 1))) := by
  unfold k0_pay6
  rw [shapeCast_a1_a_apply]
  show Ideal.div (sp (ix2 r (0 : Fin 1)) - pc (ix2 r (0 : Fin 1)) * (m (ix2 r (0 : Fin 1))
          + Ideal.log (lp (ix2 r (0 : Fin 1)) + Ideal.div (ln (ix2 r (0 : Fin 1))) (nc (ix2 r (0 : Fin 1)) + cE8))))
        (Scalar.select (Ideal.cmp .olt (pc (ix2 r (0 : Fin 1))) cE6) cOne (pc (ix2 r (0 : Fin 1)))) = _
  rw [select_olt, Cert.Consts.cOne_eq_one]

theorem pay7_apply (j : S1024x1.Idx) : k0_pay7 (F := Ideal) j = ⊥ := by
  unfold k0_pay7
  rw [shapeCast_self]
  exact Cert.Consts.negInf_eq

theorem pay8_apply (j : S1024x1.Idx) : k0_pay8 (F := Ideal) j = 0 := by
  unfold k0_pay8
  rw [shapeCast_self]
  exact Cert.Consts.zero_eq
theorem pay9_apply (j : S1024x1.Idx) : k0_pay9 (F := Ideal) j = 0 := by
  unfold k0_pay9
  rw [shapeCast_self]
  exact Cert.Consts.zero_eq
theorem pay10_apply (j : S1024x1.Idx) : k0_pay10 (F := Ideal) j = 0 := by
  unfold k0_pay10
  rw [shapeCast_self]
  exact Cert.Consts.zero_eq
theorem pay11_apply (j : S1024x1.Idx) : k0_pay11 (F := Ideal) j = 0 := by
  unfold k0_pay11
  rw [shapeCast_self]
  exact Cert.Consts.zero_eq
theorem pay12_apply (j : S1024x1.Idx) : k0_pay12 (F := Ideal) j = 0 := by
  unfold k0_pay12
  rw [shapeCast_self]
  exact Cert.Consts.zero_eq

theorem step_row (a0 a1 : BitVec 32) (v24 v26 v35 : FVec Ideal S1024x256 .f32) (v36 : IVec S1024x256 32) (c : BitVec 32)
    (s : Scr Ideal) (A : Acc) (r : Fin 1024) (a b p q : Fin 256 → EReal)
    (ha : ∀ l, k0_pay20 a0 a1 v24 v26 v35 v36 c (ix2 r l) = a l)
    (hb : ∀ l, v24 (ix2 r l) = b l)
    (hp : ∀ l, k0_pay18 a0 a1 v35 v36 c (ix2 r l) = p l)
    (hq : ∀ l, k0_pay19 a0 a1 v35 v36 c (ix2 r l) = q l)
    (h1 : s.1 (ix2 r (0 : Fin 1)) = A.m) (h2 : s.2.1 (ix2 r (0 : Fin 1)) = A.lp) (h3 : s.2.2.1 (ix2 r (0 : Fin 1)) = A.ln)
    (h4 : s.2.2.2.1 (ix2 r (0 : Fin 1)) = A.sp) (h5 : s.2.2.2.2.1 (ix2 r (0 : Fin 1)) = A.pc) (h6 : s.2.2.2.2.2 (ix2 r (0 : Fin 1)) = A.nc) :
    k0_pay5 (k0_pay21 a0 a1 v24 v26 v35 v36 c s.1) (ix2 r (0 : Fin 1)) = (A.step a b p q).m
    ∧ k0_pay24 a0 a1 v24 v26 v35 v36 c s.1 s.1 s.2.1 (ix2 r (0 : Fin 1)) = (A.step a b p q).lp
    ∧ k0_pay1 (k0_pay25 a0 a1 v24 v26 v35 v36 c s.1 s.1 s.2.2.1) (ix2 r (0 : Fin 1)) = (A.step a b p q).ln
    ∧ k0_pay2 v24 (k0_pay18 a0 a1 v35 v36 c) s.2.2.2.1 (ix2 r (0 : Fin 1)) = (A.step a b p q).sp
    ∧ k0_pay3 (k0_pay18 a0 a1 v35 v36 c) s.2.2.2.2.1 (ix2 r (0 : Fin 1)) = (A.step a b p q).pc
    ∧ k0_pay4 (k0_pay19 a0 a1 v35 v36 c) s.2.2.2.2.2 (ix2 r (0 : Fin 1)) = (A.step a b p q).nc := by
  have hfa : (fun l : Fin 256 => k0_pay20 a0 a1 v24 v26 v35 v36 c (ix2 r l)) = a := funext ha
  have hm : k0_pay21 a0 a1 v24 v26 v35 v36 c s.1 (ix2 r (0 : Fin 1)) = max A.m (Finset.univ.fold max ⊥ a) := by
    rw [pay21_apply, h1, hfa]
  have he : ∀ l, k0_pay23 a0 a1 v24 v26 v35 v36 c s.1 (ix2 r l) = Ideal.exp (a l - max A.m (Finset.univ.fold max ⊥ a)) := by
    intro l
    rw [pay23_apply, ha, hm]
  have hα : k0_pay22 a0 a1 v24 v26 v35 v36 c s.1 s.1 (ix2 r (0 : Fin 1)) = Ideal.exp (A.m - max A.m (Finset.univ.fold max ⊥ a)) := by
    rw [pay22_apply, h1, hm]
  refine ⟨?_, ?_, ?_, ?_, ?_, ?_⟩
  · rw [pay5_eq]
    exact hm
  · rw [pay24_apply, hα, h2]
    show _ = Ideal.exp (A.m - max A.m (Finset.univ.fold max ⊥ a)) * A.lp
      + ∑ l, Ideal.exp (a l - max A.m (Finset.univ.fold max ⊥ a)) * p l
    exact congrArg (_ + ·) (Finset.sum_congr rfl fun l _ => by rw [he, hp])
  · rw [pay25_apply, hα, h3]
    show _ = Ideal.exp (A.m - max A.m (Finset.univ.fold max ⊥ a)) * A.ln
      + ∑ l, Ideal.exp (a l - max A.m (Finset.univ.fold max ⊥ a)) * q l
    exact congrArg (_ + ·) (Finset.sum_congr rfl fun l _ => by rw [he, hq])
  · rw [pay2_apply, h4]
    show _ = A.sp + ∑ l, p l * b l
    exact congrArg (_ + ·) (Finset.sum_congr rfl fun l _ => by rw [hp, hb])
  · rw [pay3_apply, h5]
    show _ = A.pc + ∑ l, p l
    exact congrArg (_ + ·) (Finset.sum_congr rfl fun l _ => hp l)
  · rw [pay4_apply, h6]
    show _ = A.nc + ∑ l, q l
    exact congrArg (_ + ·) (Finset.sum_congr rfl fun l _ => hq l)

theorem reset_repr : Repr (resetScr (F := Ideal)) (fun _ => Acc.init) := by
  intro r
  exact ⟨pay7_apply (ix2 r (0 : Fin 1)), pay8_apply (ix2 r (0 : Fin 1)), pay9_apply (ix2 r (0 : Fin 1)),
    pay10_apply (ix2 r (0 : Fin 1)), pay11_apply (ix2 r (0 : Fin 1)), pay12_apply (ix2 r (0 : Fin 1))⟩

theorem step_repr (i : grid0.Coords) (bi : Fin 8) (bj : Fin 32) (hi0 : (i 0).val = bi.val) (hi1 : (i 1).val = bj.val)
    (x0 : Vec Ideal S1024x128 .bf16) (x1 : Vec Ideal S256x128 .bf16) (x2 : Vec Ideal S1024x1 .i32) (x3 : Vec Ideal S1x256 .i32)
    (cn : Fin 8192 → Fin 128 → EReal) (labr labc : Fin 8192 → BitVec 32)
    (hx0 : ∀ (r : Fin 1024) (k : Fin 128), x0 (ix2 r k) = cn (rowOf bi r) k)
    (hx1 : ∀ (l : Fin 256) (k : Fin 128), x1 (ix2 l k) = cn (col bj l) k)
    (hx2 : ∀ r : Fin 1024, x2 (ix2 r (0 : Fin 1)) = labr (rowOf bi r))
    (hx3 : ∀ l : Fin 256, x3 (ix2 (0 : Fin 1) l) = labc (col bj l))
    (s : Scr Ideal) (acc : Fin 1024 → Acc) (h : Repr s acc) :
    Repr (stepScr i x0 x1 x2 x3 s) (fun r => (acc r).step
      (fun l => lcomb cn labr labc (rowOf bi r) (col bj l)) (fun l => lposr cn (rowOf bi r) (col bj l))
      (fun l => posm labr labc (rowOf bi r) (col bj l)) (fun l => negm labr labc (rowOf bi r) (col bj l))) := by
  have hd : ∀ (r : Fin 1024) (l : Fin 256),
      (∑ k : Fin 128, x0 (ix2 r k) * x1 (ix2 l k)) = dotv cn (rowOf bi r) (col bj l) := by
    intro r l
    show _ = ∑ k : Fin 128, cn (rowOf bi r) k * cn (col bj l) k
    exact Finset.sum_congr rfl fun k _ => by rw [hx0, hx1]
  have hB : ∀ (r : Fin 1024) (l : Fin 256), tlpos x0 x1 (ix2 r l) = lposr cn (rowOf bi r) (col bj l) := by
    intro r l
    show k0_pay14 x0 x1 (ix2 r l) = _
    rw [pay14_apply, hd]
    rfl
  have hN : ∀ (r : Fin 1024) (l : Fin 256), tlneg x0 x1 (ix2 r l) = lnegv (dotv cn (rowOf bi r) (col bj l)) := by
    intro r l
    show k0_pay15 x0 x1 (ix2 r l) = _
    rw [pay15_apply, hd]
  have hM : ∀ (r : Fin 1024) (l : Fin 256),
      tmask x2 x3 (ix2 r l) = if labr (rowOf bi r) = labc (col bj l) then 1 else 0 := by
    intro r l
    show k0_pay16 (F := Ideal) x2 x3 (ix2 r l) = _
    rw [pay16_apply, hx2, hx3]
  have hE : ∀ (r : Fin 1024) (l : Fin 256),
      k0_pay17 (F := Ideal) (BitVec.ofNat 32 (i 0).val) (BitVec.ofNat 32 (i 1).val) tiota 1024#32 (ix2 r l)
        = 1 - (if rowOf bi r = col bj l then 1 else 0) := by
    intro r l
    rw [hi0, hi1]
    exact pay17_apply bi bj r l
  have hP : ∀ (r : Fin 1024) (l : Fin 256),
      k0_pay18 (BitVec.ofNat 32 (i 0).val) (BitVec.ofNat 32 (i 1).val) (tmask x2 x3) tiota 1024#32 (ix2 r l)
        = posm labr labc (rowOf bi r) (col bj l) := by
    intro r l
    rw [pay18_apply, hM, hE]
    rfl
  have hQ : ∀ (r : Fin 1024) (l : Fin 256),
      k0_pay19 (BitVec.ofNat 32 (i 0).val) (BitVec.ofNat 32 (i 1).val) (tmask x2 x3) tiota 1024#32 (ix2 r l)
        = negm labr labc (rowOf bi r) (col bj l) := by
    intro r l
    rw [pay19_apply, hE, hP]
    rfl
  have hA : ∀ (r : Fin 1024) (l : Fin 256),
      k0_pay20 (BitVec.ofNat 32 (i 0).val) (BitVec.ofNat 32 (i 1).val) (tlpos x0 x1) (tlneg x0 x1) (tmask x2 x3) tiota 1024#32 (ix2 r l)
        = lcomb cn labr labc (rowOf bi r) (col bj l) := by
    intro r l
    rw [pay20_apply, hP, hQ, hB, hN]
    rfl
  intro r
  obtain ⟨h1, h2, h3, h4, h5, h6⟩ := h r
  exact step_row _ _ _ _ _ _ _ s (acc r) r _ _ _ _ (hA r) (hB r) (hP r) (hQ r) h1 h2 h3 h4 h5 h6

theorem out_repr (s : Scr Ideal) (acc : Fin 1024 → Acc) (h : Repr s acc) (r : Fin 1024) :
    outOf s (ix1 r) = (acc r).out cE6 cE8 := by
  obtain ⟨h1, h2, h3, h4, h5, h6⟩ := h r
  unfold outOf
  rw [pay6_apply, h1, h2, h3, h4, h5, h6]
  rfl

end Cert.KernelIdeal.Hand

end
-- ==== Proof.KI.Value.lean ====
import proofs.«130313_j69320772158193_1_alg».proof.Proof.KI.Pieces
import proofs.«130313_j69320772158193_1_alg».proof.Proof.KI.StepIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.RowData Cert.OnlineRow

variable (m : (ℓ : Loc nD τ sig) → Buf (Elt Ideal) ℓ)

def cnK (c : Dev nD) (i : Fin 8192) (k : Fin 128) : EReal := (V m c main_v5 : S8192x128.Idx → EReal) (ix2 i k)
def labrK (c : Dev nD) (i : Fin 8192) : BitVec 32 := (V m c main_v6 : S8192x1.Idx → BitVec 32) (ix2 i (0 : Fin 1))
def labcK (c : Dev nD) (j : Fin 8192) : BitVec 32 := (V m c main_v7 : S1x8192.Idx → BitVec 32) (ix2 (0 : Fin 1) j)

theorem coords_val : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 32
    ∧ win0_4.index t (0 : Fin 1) = t.val / 32 :=
  (by decide +kernel : ∀ t : Fin grid0.N, _)

theorem iblk0_apply (c : Dev nD) (t : Fin cfg0.N) (bi : Fin 8) (hbi : t.val / 32 = bi.val) (r : Fin 1024) (k : Fin 128) :
    (iblk m c 0 t : Vec Ideal S1024x128 .bf16) (ix2 r k) = cnK m c (rowOf bi r) k := by
  show V m c main_v5 (((cfg0.win 0).blk t).view.emb (ix2 r k)) = V m c main_v5 (ix2 (rowOf bi r) k)
  refine congrArg _ ?_
  funext a; apply Fin.ext
  obtain ⟨e0, e1, -⟩ := idx_facts t
  match a with
  | ⟨0, _⟩ => show win0_0.index t (0 : Fin 2) * 1024 + 1 * r.val = 1024 * bi.val + r.val; rw [e0, hbi]; omega
  | ⟨1, _⟩ => show win0_0.index t (1 : Fin 2) * 128 + 1 * k.val = k.val; rw [e1]; omega

theorem iblk1_apply (c : Dev nD) (t : Fin cfg0.N) (bj : Fin 32) (hbj : t.val % 32 = bj.val) (l : Fin 256) (k : Fin 128) :
    (iblk m c 1 t : Vec Ideal S256x128 .bf16) (ix2 l k) = cnK m c (col bj l) k := by
  show V m c main_v5 (((cfg0.win 1).blk t).view.emb (ix2 l k)) = V m c main_v5 (ix2 (col bj l) k)
  refine congrArg _ ?_
  funext a; apply Fin.ext
  obtain ⟨-, -, e0, e1, -⟩ := idx_facts t
  match a with
  | ⟨0, _⟩ => show win0_1.index t (0 : Fin 2) * 256 + 1 * l.val = 256 * bj.val + l.val; rw [e0, hbj]; omega
  | ⟨1, _⟩ => show win0_1.index t (1 : Fin 2) * 128 + 1 * k.val = k.val; rw [e1]; omega

theorem iblk2_apply (c : Dev nD) (t : Fin cfg0.N) (bi : Fin 8) (hbi : t.val / 32 = bi.val) (r : Fin 1024) :
    (iblk m c 2 t : Vec Ideal S1024x1 .i32) (ix2 r (0 : Fin 1)) = labrK m c (rowOf bi r) := by
  show V m c main_v6 (((cfg0.win 2).blk t).view.emb (ix2 r (0 : Fin 1))) = V m c main_v6 (ix2 (rowOf bi r) (0 : Fin 1))
  refine congrArg _ ?_
  funext a; apply Fin.ext
  obtain ⟨-, -, -, -, e0, e1, -⟩ := idx_facts t
  match a with
  | ⟨0, _⟩ => show win0_2.index t (0 : Fin 2) * 1024 + 1 * r.val = 1024 * bi.val + r.val; rw [e0, hbi]; omega
  | ⟨1, _⟩ => show win0_2.index t (1 : Fin 2) * 1 + 1 * 0 = 0; rw [e1]

theorem iblk3_apply (c : Dev nD) (t : Fin cfg0.N) (bj : Fin 32) (hbj : t.val % 32 = bj.val) (l : Fin 256) :
    (iblk m c 3 t : Vec Ideal S1x256 .i32) (ix2 (0 : Fin 1) l) = labcK m c (col bj l) := by
  show V m c main_v7 (((cfg0.win 3).blk t).view.emb (ix2 (0 : Fin 1) l)) = V m c main_v7 (ix2 (0 : Fin 1) (col bj l))
  refine congrArg _ ?_
  funext a; apply Fin.ext
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 256 + 1 * l.val = 256 * bj.val + l.val; rw [e1, hbj]; omega

theorem scr_first (c : Dev nD) (t : Fin cfg0.N) (h0 : t.val % 32 = 0) (h1 : ¬t.val % 32 = 31) :
    (outsAt0 m c t.val t.isLt).2 = stepScr (grid0.coords t) (iblk m c 0 t) (iblk m c 1 t) (iblk m c 2 t) (iblk m c 3 t) (resetScr (F := Ideal)) := by
  rw [outsAt0_A m c t h0 h1]
  exact caseA_scr c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) ((hcond0_0 t).mpr h0) (fun h => h1 ((hcond0_1 t).mp h))

theorem scr_mid (c : Dev nD) (t : Fin cfg0.N) (h0 : ¬t.val % 32 = 0) (h1 : ¬t.val % 32 = 31) (k : ℕ) (hk : k < cfg0.N) (e : t.val - 1 = k) :
    (outsAt0 m c t.val t.isLt).2 = stepScr (grid0.coords t) (iblk m c 0 t) (iblk m c 1 t) (iblk m c 2 t) (iblk m c 3 t) (outsAt0 m c k hk).2 := by
  subst e
  rw [outsAt0_B m c t h0 h1]
  exact caseB_scr c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (fun h => h0 ((hcond0_0 t).mp h)) (fun h => h1 ((hcond0_1 t).mp h)) (outsAt0 m c (t.val - 1) (Nat.lt_of_le_of_lt (Nat.sub_le _ _) t.isLt)).2

theorem scr_last (c : Dev nD) (t : Fin cfg0.N) (h0 : ¬t.val % 32 = 0) (h1 : t.val % 32 = 31) (k : ℕ) (hk : k < cfg0.N) (e : t.val - 1 = k) :
    (outsAt0 m c t.val t.isLt).2 = stepScr (grid0.coords t) (iblk m c 0 t) (iblk m c 1 t) (iblk m c 2 t) (iblk m c 3 t) (outsAt0 m c k hk).2 := by
  subst e
  rw [outsAt0_C m c t h0 h1]
  exact caseC_scr c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2

theorem out_last (c : Dev nD) (t : Fin cfg0.N) (h0 : ¬t.val % 32 = 0) (h1 : t.val % 32 = 31) :
    (outsAt0 m c t.val t.isLt).1 = outOf (outsAt0 m c t.val t.isLt).2 := by
  rw [outsAt0_C m c t h0 h1]
  exact (caseC_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2).trans
    (congrArg outOf (caseC_scr c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2).symm)

def rowAfter (c : Dev nD) (y : Fin 8192) (n : ℕ) (h : n ≤ 32) : Acc :=
  Acc.after (lcomb (cnK m c) (labrK m c) (labcK m c) y) (lposr (cnK m c) y)
    (posm (labrK m c) (labcK m c) y) (negm (labrK m c) (labcK m c) y) n h

theorem rowAfter_step (c : Dev nD) (y : Fin 8192) (bj : Fin 32) (k : ℕ) (hk : k ≤ 32) (e : k = bj.val) :
    (rowAfter m c y k hk).step
        (fun l => lcomb (cnK m c) (labrK m c) (labcK m c) y (col bj l)) (fun l => lposr (cnK m c) y (col bj l))
        (fun l => posm (labrK m c) (labcK m c) y (col bj l)) (fun l => negm (labrK m c) (labcK m c) y (col bj l))
      = rowAfter m c y (bj.val + 1) bj.isLt := by
  subst e; rfl

theorem Repr.congr {s : Scr Ideal} {acc acc' : Fin 1024 → Acc} (h : Repr s acc) (e : ∀ r, acc r = acc' r) : Repr s acc' := by
  obtain rfl : acc = acc' := funext e
  exact h

theorem step_point (c : Dev nD) (t : Fin cfg0.N) (bi : Fin 8) (bj : Fin 32) (hbi : t.val / 32 = bi.val) (hbj : t.val % 32 = bj.val)
    (s : Scr Ideal) (k : ℕ) (hk : k ≤ 32) (e : k = bj.val) (h : Repr s (fun r => rowAfter m c (rowOf bi r) k hk)) :
    Repr (stepScr (grid0.coords t) (iblk m c 0 t) (iblk m c 1 t) (iblk m c 2 t) (iblk m c 3 t) s) (fun r => rowAfter m c (rowOf bi r) (bj.val + 1) bj.isLt) :=
  (step_repr (grid0.coords t) bi bj ((coords_val t).1.trans hbi) ((coords_val t).2.trans hbj) (iblk m c 0 t) (iblk m c 1 t) (iblk m c 2 t) (iblk m c 3 t)
    (cnK m c) (labrK m c) (labcK m c) (iblk0_apply m c t bi hbi) (iblk1_apply m c t bj hbj) (iblk2_apply m c t bi hbi) (iblk3_apply m c t bj hbj)
    s (fun r => rowAfter m c (rowOf bi r) k hk) h).congr (fun r => rowAfter_step m c (rowOf bi r) bj k hk e)

theorem scr_inv (c : Dev nD) : ∀ (n : ℕ) (hn : n < cfg0.N) (bi : Fin 8) (bj : Fin 32), n / 32 = bi.val → n % 32 = bj.val →
    Repr (outsAt0 m c n hn).2 (fun r => rowAfter m c (rowOf bi r) (bj.val + 1) bj.isLt) := by
  intro n
  induction n with
  | zero =>
    intro hn bi bj hbi hbj
    have e : (outsAt0 m c 0 hn).2 = _ := scr_first m c ⟨0, hn⟩ rfl (by dsimp only; omega)
    rw [e]
    exact step_point m c ⟨0, hn⟩ bi bj hbi hbj resetScr 0 (Nat.zero_le _) (by omega) reset_repr
  | succ k ih =>
    intro hn bi bj hbi hbj
    by_cases h0 : (k + 1) % 32 = 0
    · have e : (outsAt0 m c (k + 1) hn).2 = _ := scr_first m c ⟨k + 1, hn⟩ h0 (by dsimp only; omega)
      rw [e]
      exact step_point m c ⟨k + 1, hn⟩ bi bj hbi hbj resetScr 0 (Nat.zero_le _) (by omega) reset_repr
    · have hk : k < cfg0.N := Nat.lt_of_succ_lt hn
      have hbj0 : bj.val - 1 < 32 := by have := bj.isLt; omega
      have ihk := ih hk bi ⟨bj.val - 1, hbj0⟩ (by omega) (by dsimp only; omega)
      by_cases h1 : (k + 1) % 32 = 31
      · have e : (outsAt0 m c (k + 1) hn).2 = _ := scr_last m c ⟨k + 1, hn⟩ h0 h1 k hk (Nat.add_sub_cancel k 1)
        rw [e]
        exact step_point m c ⟨k + 1, hn⟩ bi bj hbi hbj (outsAt0 m c k hk).2 (bj.val - 1 + 1) (by omega) (by omega) ihk
      · have e : (outsAt0 m c (k + 1) hn).2 = _ := scr_mid m c ⟨k + 1, hn⟩ h0 h1 k hk (Nat.add_sub_cancel k 1)
        rw [e]
        exact step_point m c ⟨k + 1, hn⟩ bi bj hbi hbj (outsAt0 m c k hk).2 (bj.val - 1 + 1) (by omega) (by omega) ihk

def rowOut (c : Dev nD) : S8192.Idx → EReal := fun i => (rowAfter m c (i 0) 32 (le_refl _)).out cE6 cE8

theorem out_at_last (c : Dev nD) (t : Fin cfg0.N) (h1 : t.val % 32 = 31) (bi : Fin 8) (hbi : t.val / 32 = bi.val) (r : Fin 1024) :
    ((outsAt0 m c t.val t.isLt).1 : Vec Ideal S1024 .f32) (ix1 r) = (rowAfter m c (rowOf bi r) 32 (le_refl _)).out cE6 cE8 := by
  rw [out_last m c t (by omega) h1]
  exact out_repr (outsAt0 m c t.val t.isLt).2 (fun r => rowAfter m c (rowOf bi r) 32 (le_refl _))
    (scr_inv m c t.val t.isLt bi ⟨31, by decide⟩ hbi h1) r

theorem flushed_eq (c : Dev nD) (t : Fin cfg0.N) (hf : (cfg0.win 4).flush t = true) :
    (dats m 0 c).flushed 4 t = ((cfg0.win 4).blk t).view.read (Elt Ideal) (rowOut m c) := by
  have h1 : t.val % 32 = 31 := (flush0_4 t).mp hf
  have hN : cfg0.N = 256 := N_0
  have hb : t.val / 32 < 8 := by have := t.isLt; omega
  show (cfg0.win 4).cut (grid0.coords t) ((dats m 0 c).after 4 t) = _
  rw [after0_4]
  funext j
  obtain ⟨r, rfl⟩ : ∃ r : Fin 1024, j = ix1 r := ⟨j 0, eq_ix1 j⟩
  show ((outsAt0 m c t.val t.isLt).1 : Vec Ideal S1024 .f32) (ix1 r) = rowOut m c (((cfg0.win 4).blk t).view.emb (ix1 r))
  rw [out_at_last m c t h1 ⟨t.val / 32, hb⟩ rfl r]
  refine congrArg (fun y => (rowAfter m c y 32 (le_refl _)).out cE6 cE8) ?_
  apply Fin.ext
  obtain ⟨-, -, -, -, -, -, -, -, e⟩ := idx_facts t
  show 1024 * (t.val / 32) + r.val = win0_4.index t (0 : Fin 1) * 1024 + 1 * r.val
  rw [e]; omega

theorem mem_blk4 (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v8).slice (win0_4.rect t)).set ↔ _
  rw [View.set_slice_whole, Rect.mem_set_unit]
  exact Iff.rfl

theorem cover4 (i : S8192.Idx) : ∃ t : Fin cfg0.N, (cfg0.win 4).flush t = true ∧ i ∈ ((cfg0.win 4).blk t).view.set := by
  have hN : cfg0.N = 256 := N_0
  have hi : (i 0).val < 8192 := (i 0).isLt
  have ht : 32 * ((i 0).val / 1024) + 31 < cfg0.N := by rw [hN]; omega
  refine ⟨⟨32 * ((i 0).val / 1024) + 31, ht⟩, (flush0_4 _).mpr (by dsimp only; omega), ?_⟩
  rw [mem_blk4]
  intro a
  obtain ⟨-, -, -, -, -, -, -, -, e⟩ := idx_facts ⟨32 * ((i 0).val / 1024) + 31, ht⟩
  match a with
  | ⟨0, _⟩ =>
    show win0_4.index ⟨32 * ((i 0).val / 1024) + 31, ht⟩ (0 : Fin 1) * 1024 ≤ (i 0).val ∧ (i 0).val < win0_4.index ⟨32 * ((i 0).val / 1024) + 31, ht⟩ (0 : Fin 1) * 1024 + 1024
    rw [e]; dsimp only; omega

theorem out_value (c : Dev nD) (y : Fin 8192) :
    ((dats (F := Ideal) m 0 c).arrAt 4 cfg0.N : S8192.Idx → EReal) (ix1 y)
      = (Acc.after (lcomb (cnK m c) (labrK m c) (labcK m c) y) (lposr (cnK m c) y)
          (posm (labrK m c) (labcK m c) y) (negm (labrK m c) (labcK m c) y) 32 (le_refl _)).out cE6 cE8 := by
  have h := (dats m 0 c).arrAt_eq_of_cover 4 (rowOut m c) (fun t hf => flushed_eq m c t hf) cover4
  exact congrFun h (ix1 y)

end Cert.KernelIdeal.Hand

end
-- ==== Proof.RefValue.lean ====
import proofs.«130313_j69320772158193_1_alg».proof.Proof.RefRead
import proofs.«130313_j69320772158193_1_alg».proof.Proof.RowData
import proofs.«130313_j69320772158193_1_alg».proof.Proof.OnlineRow
import proofs.«130313_j69320772158193_1_alg».proof.Proof.Consts
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.TcCoe Idealize.ShloMosaic.ValueIdx
open Cert.RowData Cert.OnlineRow

def cnR (x0 : (⟨S8192x128, .f32⟩ : BufTy).Contents (Elt Ideal)) (i : Fin 8192) (k : Fin 128) : EReal :=
  Cert.ReferenceIdeal.ReadP.val_main_v10 (F := Ideal) x0 (ix2 i k)

def labR (x1 : (⟨S8192, .i32⟩ : BufTy).Contents (Elt Ideal)) (i : Fin 8192) : BitVec 32 := x1 (ix1 i)

open Cert.ReferenceIdeal.ReadP

theorem cOne_eq : cOne = 1 := Cert.Consts.cOne_eq_one

theorem negInf_eq : Ideal.ofBits .f32 0xFF800000#32 = (⊥ : EReal) := Cert.Consts.negInf_eq

theorem v12_entry (x0 : (⟨S8192x128, .f32⟩ : BufTy).Contents (Elt Ideal)) (i j : Fin 8192) :
    val_main_v12 (F := Ideal) x0 (ix2 i j) = dotv (cnR x0) i j := by
  rw [val_main_v12_apply]
  unfold dotv cnR
  refine Finset.sum_congr rfl fun k _ => ?_
  rw [val_main_v11_apply]
  refine congrArg₂ (· * ·) (congrArg _ ?_) (congrArg _ ?_)
  · funext a; match a with | ⟨0, _⟩ => rfl | ⟨1, _⟩ => rfl
  · funext a; match a with | ⟨0, _⟩ => rfl | ⟨1, _⟩ => rfl

theorem v14_entry (x0 : (⟨S8192x128, .f32⟩ : BufTy).Contents (Elt Ideal)) (i j : Fin 8192) :
    val_main_v14 (F := Ideal) x0 (ix2 i j) = cosv (dotv (cnR x0) i j) := by
  rw [val_main_v14_apply, val_main_v13_apply, val_main_call1_v4_apply, val_main_call1_v3_apply, val_main_cst_1_apply,
    val_main_call1_v2_apply, val_main_call1_v1_apply, val_main_call1_v0_apply, val_main_cst_0_apply, v12_entry]
  rfl

theorem v24_entry (x0 : (⟨S8192x128, .f32⟩ : BufTy).Contents (Elt Ideal)) (i j : Fin 8192) :
    val_main_v24 (F := Ideal) x0 (ix2 i j) = lposv (dotv (cnR x0) i j) := by
  rw [val_main_v24_apply, val_main_v23_apply, val_main_cst_5_apply, val_main_v22_apply, val_main_v21_apply,
    val_main_v20_apply, val_main_cst_4_apply, val_main_v19_apply, val_main_v18_apply, val_main_cst_3_apply,
    val_main_v17_apply, val_main_v16_apply, val_main_v15_apply, val_main_cst_2_apply, v14_entry]
  rfl

theorem v26_entry (x0 : (⟨S8192x128, .f32⟩ : BufTy).Contents (Elt Ideal)) (i j : Fin 8192) :
    val_main_v26 (F := Ideal) x0 (ix2 i j) = lnegv (dotv (cnR x0) i j) := by
  rw [val_main_v26_apply, val_main_v25_apply, val_main_cst_6_apply, v14_entry]
  rfl

theorem bit_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · simp [h]
  · simp [h]

theorem v5_entry (x1 : (⟨S8192, .i32⟩ : BufTy).Contents (Elt Ideal)) (i j : Fin 8192) :
    val_main_v5 (F := Ideal) x1 (ix2 i j) = if labR x1 i = labR x1 j then (1 : EReal) else 0 := by
  rw [val_main_v5_apply, val_main_v4_apply, val_main_v2_apply, val_main_v0_apply, val_main_v3_apply, val_main_v1_apply, bit_eq]
  have e1 : idx_main_v0 (idx_main_v2 (ix2 i j)) = ix1 i := by funext a; match a with | ⟨0, _⟩ => rfl
  have e2 : idx_main_v1 (idx_main_v3 (ix2 i j)) = ix1 j := by funext a; match a with | ⟨0, _⟩ => rfl
  rw [e1, e2]
  rfl

theorem ofNat_eq_iff (i j : Fin 8192) : BitVec.ofNat 32 i.val + 0#32 = BitVec.ofNat 32 j.val ↔ i = j := by
  constructor
  · intro h
    have h' := congrArg BitVec.toNat h
    simp only [BitVec.add_zero, BitVec.toNat_ofNat] at h'
    have hi := i.isLt; have hj := j.isLt
    rw [Nat.mod_eq_of_lt (by omega), Nat.mod_eq_of_lt (by omega)] at h'
    exact Fin.ext h'
  · rintro rfl; simp

theorem v34_entry (i j : Fin 8192) :
    val_main_v34 (F := Ideal) (ix2 i j) = 1 - (if i = j then (1 : EReal) else 0) := by
  rw [val_main_v34_apply, val_main_v33_apply, val_main_cst_7_apply, val_main_v32_apply, val_main_v31_apply,
    val_main_v30_apply, val_main_v27_apply, val_main_v28_apply, val_main_v29_apply, val_main_c_apply, bit_eq]
  show cOne - (if BitVec.ofNat 32 i.val + 0#32 = BitVec.ofNat 32 j.val then (1 : EReal) else 0) = _
  rw [cOne_eq]
  by_cases h : i = j
  · rw [if_pos h, if_pos ((ofNat_eq_iff i j).2 h)]
  · rw [if_neg h, if_neg (fun h' => h ((ofNat_eq_iff i j).1 h'))]

theorem v35_entry (x1 : (⟨S8192, .i32⟩ : BufTy).Contents (Elt Ideal)) (i j : Fin 8192) :
    val_main_v35 (F := Ideal) x1 (ix2 i j) = posm (labR x1) (labR x1) i j := by
  rw [val_main_v35_apply, v5_entry, v34_entry]
  rfl

theorem v36_entry (x1 : (⟨S8192, .i32⟩ : BufTy).Contents (Elt Ideal)) (i j : Fin 8192) :
    val_main_v36 (F := Ideal) x1 (ix2 i j) = negm (labR x1) (labR x1) i j := by
  rw [val_main_v36_apply, v35_entry, v34_entry]
  rfl

theorem v39_entry (x0 : (⟨S8192x128, .f32⟩ : BufTy).Contents (Elt Ideal)) (x1 : (⟨S8192, .i32⟩ : BufTy).Contents (Elt Ideal)) (i j : Fin 8192) :
    val_main_v39 (F := Ideal) x0 x1 (ix2 i j) = lcomb (cnR x0) (labR x1) (labR x1) i j := by
  rw [val_main_v39_apply, val_main_v37_apply, val_main_v38_apply, v35_entry, v36_entry, v24_entry, v26_entry]
  rfl

theorem v40_row (x0 : (⟨S8192x128, .f32⟩ : BufTy).Contents (Elt Ideal)) (x1 : (⟨S8192, .i32⟩ : BufTy).Contents (Elt Ideal)) (i : Fin 8192) :
    val_main_v40 (F := Ideal) x0 x1 (ix1 i) = Finset.univ.fold max ⊥ (lcomb (cnR x0) (labR x1) (labR x1) i) := by
  unfold val_main_v40
  have hy : ∀ j : Fin 8192, val_main_v39 (F := Ideal) x0 x1 (ix2 i j) = (lcomb (cnR x0) (labR x1) (labR x1) i) j := fun j => v39_entry x0 x1 i j
  generalize val_main_v39 (F := Ideal) x0 x1 = y at hy
  have h : S8192x8192.Reduces [1] S8192 := by decide
  rw [Host.reduce_eq_fold_single (FloatOps.maximumf (F := Ideal) (φ := .f32)) y _ reducesTo_S8192x8192_S8192_d1 h h_S_ (ix1 i)]
  have hf : (y ∘ h.lift (ix1 i)) = (lcomb (cnR x0) (labR x1) (labR x1) i) := by
    funext k
    rw [← hy k]
    exact congrArg y (funext fun a => Fin.ext (by match a with | ⟨0, _⟩ => rfl | ⟨1, _⟩ => rfl))
  rw [hf, val_main_cst_8_apply]
  show Finset.fold max (Ideal.ofBits .f32 0xFF800000#32) _ _ = _
  rw [negInf_eq]
  rfl

theorem v42_entry (x0 : (⟨S8192x128, .f32⟩ : BufTy).Contents (Elt Ideal)) (x1 : (⟨S8192, .i32⟩ : BufTy).Contents (Elt Ideal)) (i j : Fin 8192) :
    val_main_v42 (F := Ideal) x0 x1 (ix2 i j) = Finset.univ.fold max ⊥ (lcomb (cnR x0) (labR x1) (labR x1) i) := by
  rw [val_main_v42_apply, val_main_v41_apply, ← v40_row x0 x1 i]
  refine congrArg _ ?_
  funext a; match a with | ⟨0, _⟩ => rfl

theorem v44_entry (x0 : (⟨S8192x128, .f32⟩ : BufTy).Contents (Elt Ideal)) (x1 : (⟨S8192, .i32⟩ : BufTy).Contents (Elt Ideal)) (i j : Fin 8192) :
    val_main_v44 (F := Ideal) x0 x1 (ix2 i j) = Ideal.exp ((lcomb (cnR x0) (labR x1) (labR x1) i) j - Finset.univ.fold max ⊥ (lcomb (cnR x0) (labR x1) (labR x1) i)) := by
  rw [val_main_v44_apply, val_main_v43_apply, v39_entry, v42_entry]
  rfl

theorem idx_row (i k : Fin 8192) : idx_main_v46 (ix1 i) k = ix2 i k := by
  funext a; match a with | ⟨0, _⟩ => rfl | ⟨1, _⟩ => rfl

theorem v46_row (x0 : (⟨S8192x128, .f32⟩ : BufTy).Contents (Elt Ideal)) (x1 : (⟨S8192, .i32⟩ : BufTy).Contents (Elt Ideal)) (i : Fin 8192) :
    val_main_v46 (F := Ideal) x0 x1 (ix1 i) = (0 + ∑ j', Ideal.exp ((lcomb (cnR x0) (labR x1) (labR x1) i) j' - Finset.univ.fold max ⊥ (lcomb (cnR x0) (labR x1) (labR x1) i)) * (posm (labR x1) (labR x1) i) j') := by
  rw [val_main_v46_apply, val_main_cst_9_apply]
  show Ideal.ofBits .f32 0x00000000#32 + _ = _
  rw [Ideal.ofBits_zero_f32]
  refine congrArg (0 + ·) (Finset.sum_congr rfl fun k _ => ?_)
  rw [idx_row, val_main_v45_apply, v44_entry, v35_entry]
  rfl

theorem v49_row (x0 : (⟨S8192x128, .f32⟩ : BufTy).Contents (Elt Ideal)) (x1 : (⟨S8192, .i32⟩ : BufTy).Contents (Elt Ideal)) (i : Fin 8192) :
    val_main_v49 (F := Ideal) x0 x1 (ix1 i) = (0 + ∑ j', Ideal.exp ((lcomb (cnR x0) (labR x1) (labR x1) i) j' - Finset.univ.fold max ⊥ (lcomb (cnR x0) (labR x1) (labR x1) i)) * (negm (labR x1) (labR x1) i) j') := by
  rw [val_main_v49_apply, val_main_cst_10_apply]
  show Ideal.ofBits .f32 0x00000000#32 + _ = _
  rw [Ideal.ofBits_zero_f32]
  refine congrArg (0 + ·) (Finset.sum_congr rfl fun k _ => ?_)
  rw [show idx_main_v49 (ix1 i) k = ix2 i k from idx_row i k, val_main_v48_apply, v44_entry, v36_entry]
  rfl

theorem v51_row (x1 : (⟨S8192, .i32⟩ : BufTy).Contents (Elt Ideal)) (i : Fin 8192) :
    val_main_v51 (F := Ideal) x1 (ix1 i) = (0 + ∑ j', (negm (labR x1) (labR x1) i) j') := by
  rw [val_main_v51_apply, val_main_cst_11_apply]
  show Ideal.ofBits .f32 0x00000000#32 + _ = _
  rw [Ideal.ofBits_zero_f32]
  refine congrArg (0 + ·) (Finset.sum_congr rfl fun k _ => ?_)
  rw [show idx_main_v51 (ix1 i) k = ix2 i k from idx_row i k, v36_entry]

theorem v60_row (x1 : (⟨S8192, .i32⟩ : BufTy).Contents (Elt Ideal)) (i : Fin 8192) :
    val_main_v60 (F := Ideal) x1 (ix1 i) = (0 + ∑ j', (posm (labR x1) (labR x1) i) j') := by
  rw [val_main_v60_apply, val_main_cst_13_apply]
  show Ideal.ofBits .f32 0x00000000#32 + _ = _
  rw [Ideal.ofBits_zero_f32]
  refine congrArg (0 + ·) (Finset.sum_congr rfl fun k _ => ?_)
  rw [show idx_main_v60 (ix1 i) k = ix2 i k from idx_row i k, v35_entry]

theorem v58_entry (x0 : (⟨S8192x128, .f32⟩ : BufTy).Contents (Elt Ideal)) (x1 : (⟨S8192, .i32⟩ : BufTy).Contents (Elt Ideal)) (i j : Fin 8192) :
    val_main_v58 (F := Ideal) x0 x1 (ix2 i j) = Ideal.log ((0 + ∑ j', Ideal.exp ((lcomb (cnR x0) (labR x1) (labR x1) i) j' - Finset.univ.fold max ⊥ (lcomb (cnR x0) (labR x1) (labR x1) i)) * (posm (labR x1) (labR x1) i) j') + Ideal.div (0 + ∑ j', Ideal.exp ((lcomb (cnR x0) (labR x1) (labR x1) i) j' - Finset.univ.fold max ⊥ (lcomb (cnR x0) (labR x1) (labR x1) i)) * (negm (labR x1) (labR x1) i) j') ((0 + ∑ j', (negm (labR x1) (labR x1) i) j') + cE8)) := by
  rw [val_main_v58_apply, val_main_v57_apply, val_main_v56_apply, val_main_v55_apply, val_main_v54_apply,
    val_main_v53_apply, val_main_cst_12_apply, val_main_v52_apply, val_main_v50_apply, val_main_v47_apply]
  have e : ∀ f : S8192x1.Idx → S8192.Idx, (∀ z, f z = fun a => match a with | ⟨0, _⟩ => ⟨(z 0).val, (z 0).isLt⟩) →
      f (idx_main_v58 (ix2 i j)) = ix1 i := by
    intro f hf; rw [hf]; funext a; match a with | ⟨0, _⟩ => rfl
  rw [e idx_main_v47 (fun _ => rfl), e idx_main_v50 (fun _ => rfl), e idx_main_v52 (fun _ => rfl),
    v46_row, v49_row, v51_row]
  rfl

theorem v64_row (x1 : (⟨S8192, .i32⟩ : BufTy).Contents (Elt Ideal)) (i : Fin 8192) :
    val_main_v64 (F := Ideal) x1 (ix1 i) = if (0 + ∑ j', (posm (labR x1) (labR x1) i) j') < cE6 then 1 else (0 + ∑ j', (posm (labR x1) (labR x1) i) j') := by
  rw [val_main_v64_apply, val_main_v62_apply, val_main_v61_apply, val_main_cst_14_apply, val_main_v63_apply,
    val_main_cst_15_apply, v60_row]
  show Scalar.select (Ideal.cmp .olt _ cE6) cOne _ = _
  rw [cOne_eq]
  generalize (0 + ∑ j', (posm (labR x1) (labR x1) i) j') = pc
  generalize (cE6 : EReal) = e6
  by_cases h : pc < e6
  · rw [if_pos h]; simp [Scalar.select, Ideal.cmp, h]
  · rw [if_neg h]; simp [Scalar.select, Ideal.cmp, h]

theorem v66_row (x0 : (⟨S8192x128, .f32⟩ : BufTy).Contents (Elt Ideal)) (x1 : (⟨S8192, .i32⟩ : BufTy).Contents (Elt Ideal)) (i : Fin 8192) :
    val_main_v66 (F := Ideal) x0 x1 (ix1 i)
      = 0 + ∑ j, (posm (labR x1) (labR x1) i) j * (((lcomb (cnR x0) (labR x1) (labR x1) i) j - Finset.univ.fold max ⊥ (lcomb (cnR x0) (labR x1) (labR x1) i)) - Ideal.log ((0 + ∑ j', Ideal.exp ((lcomb (cnR x0) (labR x1) (labR x1) i) j' - Finset.univ.fold max ⊥ (lcomb (cnR x0) (labR x1) (labR x1) i)) * (posm (labR x1) (labR x1) i) j') + Ideal.div (0 + ∑ j', Ideal.exp ((lcomb (cnR x0) (labR x1) (labR x1) i) j' - Finset.univ.fold max ⊥ (lcomb (cnR x0) (labR x1) (labR x1) i)) * (negm (labR x1) (labR x1) i) j') ((0 + ∑ j', (negm (labR x1) (labR x1) i) j') + cE8))) := by
  rw [val_main_v66_apply, val_main_cst_16_apply]
  show Ideal.ofBits .f32 0x00000000#32 + _ = _
  rw [Ideal.ofBits_zero_f32]
  refine congrArg (0 + ·) (Finset.sum_congr rfl fun k _ => ?_)
  rw [show idx_main_v66 (ix1 i) k = ix2 i k from idx_row i k, val_main_v65_apply, v35_entry, val_main_v59_apply,
    val_main_v43_apply, v39_entry, v42_entry, v58_entry]
  rfl

theorem v69_row (x0 : (⟨S8192x128, .f32⟩ : BufTy).Contents (Elt Ideal)) (x1 : (⟨S8192, .i32⟩ : BufTy).Contents (Elt Ideal)) (i : Fin 8192) :
    val_main_v69 (F := Ideal) x0 x1 (ix1 i)
      = cOne * rowRef (lcomb (cnR x0) (labR x1) (labR x1) i) (posm (labR x1) (labR x1) i) (negm (labR x1) (labR x1) i) cE6 cE8 := by
  rw [val_main_v69_apply, val_main_v68_apply, val_main_cst_17_apply, val_main_v67_apply, v66_row, v64_row]
  rfl

def idxEquiv1 {n : Nat} : (⟨1, ![n]⟩ : Shape).Idx ≃ Fin n where
  toFun j := j 0
  invFun a := ix1 a
  left_inv j := (eq_ix1 j).symm
  right_inv _ := rfl

theorem sum_idx1 {n : Nat} (f : (⟨1, ![n]⟩ : Shape).Idx → EReal) : ∑ j, f j = ∑ a : Fin n, f (ix1 a) := by
  rw [← Equiv.sum_comp (idxEquiv1 (n := n)).symm f]
  rfl

theorem ref_value (x0 : (⟨S8192x128, .f32⟩ : BufTy).Contents (Elt Ideal)) (x1 : (⟨S8192, .i32⟩ : BufTy).Contents (Elt Ideal)) :
    Cert.ReferenceIdeal.ReadP.val_main_v71 (F := Ideal) x0 x1
      = fun _ => meanRows (fun i => cOne * rowRef (lcomb (cnR x0) (labR x1) (labR x1) i) (posm (labR x1) (labR x1) i) (negm (labR x1) (labR x1) i) cE6 cE8) := by
  funext z
  rw [val_main_v71_apply, val_main_v70_apply, val_main_cst_18_apply, val_main_cst_19_apply]
  show Ideal.div (Ideal.ofBits .f32 0x00000000#32 + _) cRows = _
  rw [Ideal.ofBits_zero_f32, sum_idx1]
  unfold meanRows
  refine congrArg (fun s => Ideal.div (0 + s) cRows) (Finset.sum_congr rfl fun i _ => ?_)
  exact v69_row x0 x1 i

end Cert.RefValue

end
-- ==== Proof.KI.Bridge.lean ====
import proofs.«130313_j69320772158193_1_alg».proof.Proof.KI.Runs
import proofs.«130313_j69320772158193_1_alg».proof.Proof.RefValue
import proofs.«130313_j69320772158193_1_alg».proof.Defs
import proofs.«130313_j69320772158193_1_alg».proof.Proof.Gen.Pre_finite_inputs
import Idealize.ShloMosaic.Lib.ReduceAll
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.RowData Cert.OnlineRow

variable (m : (ℓ : Loc nD τ sig) → Buf (Elt Ideal) ℓ)

theorem ofBool_eq_one_iff (b : Bool) : BitVec.ofBool b = 1#1 ↔ b = true := by cases b <;> decide

theorem div_max_sqrt_real {ι : Type} [Fintype ι] (a : ℝ) (g : ι → ℝ) (e : ℝ) (he : 0 < e) :
    ∃ r : ℝ, Ideal.div (a : EReal) (max (Ideal.sqrt (∑ k, (g k : EReal) * (g k : EReal))) (e : EReal)) = (r : EReal) := by
  have hS : 0 ≤ ∑ k, g k * g k := Finset.sum_nonneg fun _ _ => mul_self_nonneg _
  simp only [← EReal.coe_mul, ← coe_sum]
  rw [Ideal.sqrt_coe, if_neg (not_lt.mpr hS), ← EReal.coe_strictMono.monotone.map_max,
    Ideal.div_coe (ne_of_gt (lt_of_lt_of_le he (le_max_right _ _))), ← EReal.coe_mul]
  exact ⟨_, rfl⟩

theorem real_of_abs_lt_top (x : EReal) (h : max x (-x) < ⊤) : ∃ r : ℝ, x = (r : EReal) := by
  induction x using EReal.rec with
  | bot => simp at h
  | coe r => exact ⟨r, rfl⟩
  | top => simp at h

theorem cn_real (x0 : (⟨Cert.ReferenceIdeal.S8192x128, .f32⟩ : BufTy).Contents (Elt Ideal)) (h : ∀ i, ∃ r : ℝ, x0 i = (r : EReal)) :
    ∀ i k, ∃ r : ℝ, Cert.RefValue.cnR x0 i k = (r : EReal) := by
  intro i k
  choose f hf using h
  obtain ⟨e, he0, he⟩ := Cert.Consts.cEps_real
  unfold Cert.RefValue.cnR
  rw [Cert.ReferenceIdeal.ReadP.val_main_v10_apply, Cert.ReferenceIdeal.ReadP.val_main_v9_apply,
    Cert.ReferenceIdeal.ReadP.val_main_v8_apply, Cert.ReferenceIdeal.ReadP.val_main_v7_apply,
    Cert.ReferenceIdeal.ReadP.val_main_cst_apply, Cert.ReferenceIdeal.ReadP.val_main_v6_apply,
    Cert.ReferenceIdeal.ReadP.val_main_call0_v2_apply, Cert.ReferenceIdeal.ReadP.val_main_call0_v1_apply,
    Cert.ReferenceIdeal.ReadP.val_main_call0_cst_apply]
  simp only [Cert.ReferenceIdeal.ReadP.val_main_call0_v0_apply, hf, Ideal.hostDivf_def, Ideal.maximumf_def,
    Ideal.hostUnary_sqrt_def, Ideal.mulf_def, Ideal.ofBits_def, Ideal.ofBits_zero_f32, zero_add]
  rw [he]
  exact div_max_sqrt_real _ _ e he0

theorem finite_of_pre (h : Cert.Pre_KernelIdeal (hPre_finite_inputs := Cert.Pre_finite_inputs.Gen.facts) m) (c : Dev nD) :
    ∀ i, ∃ r : ℝ, (m ((c.tc : Thread nD τ).loc main_arg0) : S8192x128.Idx → EReal) i = (r : EReal) := by
  intro i
  have h0 := congrFun (h c) ValueIdx.ix0
  dsimp only [Cert.Pre_finite_inputs.fn] at h0
  have h1 := (IntOp.andi_eq_one.1 h0).1
  haveI : Subsingleton Cert.Pre_finite_inputs.S_.Idx := ⟨fun a b => funext fun d => d.elim0⟩
  have h2 := Host.reduce_andi_all _ _ _ _ _ h1 i
  suffices H : ∀ x : EReal, Ideal.cmp .olt (max x (-x)) (Ideal.ofBits .f32 0x7F800000#32) = 1#1 → ∃ r : ℝ, x = (r : EReal)
    from H _ h2
  intro x h3
  rw [Cert.Consts.posInf_eq] at h3
  simp only [Ideal.cmp, ofBool_eq_one_iff, decide_eq_true_eq] at h3
  exact real_of_abs_lt_top x h3

theorem tail_ideal (o : (⟨S8192, .f32⟩ : BufTy).Contents (Elt Ideal)) :
    (mulf (Host.divf (Host.reduceAdd o (constant (F := Ideal) S_ .f32 0x00000000#32) reducesTo_S8192_S_d0 h_S_) (constant (F := Ideal) S_ .f32 0x46000000#32)) (constant (F := Ideal) S_ .f32 0x3F800000#32)
      : (⟨S_, .f32⟩ : BufTy).Contents (Elt Ideal))
      = fun _ => meanRows (fun i => (o : S8192.Idx → EReal) (ix1 i)) * cOne := by
  funext z
  have hsum : Host.reduceAdd o (constant (F := Ideal) S_ .f32 0x00000000#32) reducesTo_S8192_S_d0 h_S_ z
      = Ideal.ofBits .f32 0x00000000#32 + ∑ j : S8192.Idx, (o : S8192.Idx → EReal) j := by
    simp only [Host.reduceAdd, Ideal.hostReduceAdd_def]
    exact Ideal.hostReduceAdd_total reducesTo_S8192_S_d0 (fun b => b.elim0) o _ z
  show Ideal.div (Host.reduceAdd o (constant (F := Ideal) S_ .f32 0x00000000#32) reducesTo_S8192_S_d0 h_S_ z) cRows * cOne = _
  rw [hsum, Ideal.ofBits_zero_f32, Cert.RefValue.sum_idx1]
  rfl

end Cert.KernelIdeal.Hand

end
-- ==== Proof.KI.BridgeV.lean ====
import proofs.«130313_j69320772158193_1_alg».proof.Proof.KI.Runs
import proofs.«130313_j69320772158193_1_alg».proof.Proof.RefValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.RowData Cert.OnlineRow

variable (m : (ℓ : Loc nD τ sig) → Buf (Elt Ideal) ℓ)

open Cert.ReferenceIdeal.ReadP in
theorem norm_eq_ref (x : S8192x128.Idx → EReal) :
    (truncf (F := Ideal) .bf16
      (Host.divf (F := Ideal) (x : (⟨S8192x128, .f32⟩ : BufTy).Contents (Elt Ideal))
        (broadcastInDim S8192x128 ![0, 1] bcast_S8192x1_S8192x128_0_1
          (maximumf
            (Host.sqrt
              (broadcastInDim S8192x1 ![0] bcast_S8192_S8192x1_0
                (Host.reduceAdd (mulf x x) (constant (F := Ideal) S_ .f32 0x00000000#32) reducesTo_S8192x128_S8192_d1 h_S_)))
            (broadcastInDim S8192x1 ![] bcast_S_S8192x1 (constant (F := Ideal) S_ .f32 0x2B8CBCCC#32)))))
      bitsLt_bf16_f32 : S8192x128.Idx → EReal)
      = Cert.ReferenceIdeal.ReadP.val_main_v10 (F := Ideal) x := by
  unfold val_main_v10 val_main_v9 val_main_v8 val_main_v7 val_main_cst val_main_v6 val_main_call0_v2 val_main_call0_v1 val_main_call0_v0 val_main_call0_cst
  rfl

theorem V5_term (c : Dev nD) :
    (V m c main_v5 : S8192x128.Idx → EReal) = Cert.ReferenceIdeal.ReadP.val_main_v10 (F := Ideal) (m ((c.tc : Thread nD τ).loc main_arg0)) := by
  dsimp only [V, V0]
  simp only [hostOps0, hostOps0_1, List.flatten_cons, List.flatten_nil, List.append_nil, List.cons_append, List.nil_append]
  after_results
  simp only [StableHlo.TRef.ofBuf, StableHlo.TRef.toBuf, cast_eq]
  exact norm_eq_ref (m (c, Proc.tc.devRef main_arg0))

theorem V6_term (c : Dev nD) :
    (V m c main_v6 : S8192x1.Idx → BitVec 32) = shapeCast S8192x1 (m ((c.tc : Thread nD τ).loc main_arg1)) shapeCasts_S8192_S8192x1 := by
  dsimp only [V, V0]
  simp only [hostOps0, hostOps0_1, List.flatten_cons, List.flatten_nil, List.append_nil, List.cons_append, List.nil_append]
  after_results
  rfl

theorem V7_term (c : Dev nD) :
    (V m c main_v7 : S1x8192.Idx → BitVec 32) = shapeCast S1x8192 (m ((c.tc : Thread nD τ).loc main_arg1)) shapeCasts_S8192_S1x8192 := by
  dsimp only [V, V0]
  simp only [hostOps0, hostOps0_1, List.flatten_cons, List.flatten_nil, List.append_nil, List.cons_append, List.nil_append]
  after_results
  rfl

theorem V_feat (c : Dev nD) (i : Fin 8192) (k : Fin 128) :
    (V m c main_v5 : S8192x128.Idx → EReal) (ix2 i k) = Cert.RefValue.cnR (m ((c.tc : Thread nD τ).loc main_arg0)) i k := by
  rw [V5_term]
  rfl

theorem V_rowlab (c : Dev nD) (i : Fin 8192) :
    (V m c main_v6 : S8192x1.Idx → BitVec 32) (ix2 i (0 : Fin 1)) = Cert.RefValue.labR (m ((c.tc : Thread nD τ).loc main_arg1)) i := by
  rw [V6_term]
  exact shapeCast_apply (m ((c.tc : Thread nD τ).loc main_arg1)) shapeCasts_S8192_S8192x1 (ix2 i (0 : Fin 1)) (ix1 i) (by
    refine (Shape.rowMajor_val_one (d := ![8192]) (ix1 i)).trans (Eq.trans ?_ (Shape.rowMajor_val_two (d := ![8192, 1]) (ix2 i (0 : Fin 1))).symm)
    show i.val = i.val * 1 + 0
    omega)
theorem V_collab (c : Dev nD) (j : Fin 8192) :
    (V m c main_v7 : S1x8192.Idx → BitVec 32) (ix2 (0 : Fin 1) j) = Cert.RefValue.labR (m ((c.tc : Thread nD τ).loc main_arg1)) j := by
  rw [V7_term]
  exact shapeCast_apply (m ((c.tc : Thread nD τ).loc main_arg1)) shapeCasts_S8192_S1x8192 (ix2 (0 : Fin 1) j) (ix1 j) (by
    refine (Shape.rowMajor_val_one (d := ![8192]) (ix1 j)).trans (Eq.trans ?_ (Shape.rowMajor_val_two (d := ![1, 8192]) (ix2 (0 : Fin 1) j)).symm)
    show j.val = 0 * 8192 + j.val
    omega)

end Cert.KernelIdeal.Hand

end
-- ==== Proof.RowFacts.lean ====
import proofs.«130313_j69320772158193_1_alg».proof.Proof.RowData
import proofs.«130313_j69320772158193_1_alg».proof.Proof.OnlineRow
import proofs.«130313_j69320772158193_1_alg».proof.Proof.Consts

noncomputable section

namespace Cert.RowFacts

open Idealize.ShloMosaic Cert.RowData Cert.OnlineRow Cert.Consts

theorem cOne_eq_one : cOne = 1 := by
  exact Cert.Consts.cOne_eq_one

theorem dotv_real (cn : Fin 8192 → Fin 128 → EReal) (hcn : ∀ i k, ∃ r : ℝ, cn i k = (r : EReal)) (i j : Fin 8192) :
    ∃ r : ℝ, dotv cn i j = (r : EReal) := by
  choose f hf using hcn
  refine ⟨∑ k, f i k * f j k, ?_⟩
  rw [dotv, coe_sum]
  refine Finset.sum_congr rfl fun k _ => ?_
  rw [hf i k, hf j k, EReal.coe_mul]

theorem cosv_real (d : ℝ) : ∃ r : ℝ, cosv (d : EReal) = (r : EReal) := by
  obtain ⟨lo, hlo⟩ := cLo_real
  obtain ⟨hi, hhi⟩ := cHi_real
  refine ⟨-(min hi (max lo d)), ?_⟩
  rw [cosv, hlo, hhi, ← EReal.coe_strictMono.monotone.map_max, ← EReal.coe_strictMono.monotone.map_min, EReal.coe_neg]

theorem lnegv_real (d : ℝ) : ∃ r : ℝ, lnegv (d : EReal) = (r : EReal) := by
  obtain ⟨c, hc⟩ := cosv_real d
  obtain ⟨t, ht0, ht⟩ := cTemp_real
  refine ⟨c * (1 / t), ?_⟩
  rw [lnegv, hc, ht, Ideal.div_coe ht0, EReal.coe_mul]

theorem lposv_real (d : ℝ) : ∃ r : ℝ, lposv (d : EReal) = (r : EReal) := by
  obtain ⟨c, hc⟩ := cosv_real d
  obtain ⟨m, hm⟩ := cMargin_real
  obtain ⟨w, hw0, hw⟩ := cTwo_real
  obtain ⟨t, ht0, ht⟩ := cTemp_real
  refine ⟨(c - m * Real.exp (1 - c) * (1 / w)) * (1 / t), ?_⟩
  have e1 : (1 : EReal) - (c : EReal) = ((1 - c : ℝ) : EReal) := by
    rw [EReal.coe_sub, EReal.coe_one]
  rw [lposv, hc, hm, hw, ht, cOne_eq_one, e1, Ideal.exp_coe, Ideal.div_coe hw0, Ideal.div_coe ht0]
  simp only [EReal.coe_mul, EReal.coe_sub]

theorem ereal_one_sub_one : (1 : EReal) - 1 = 0 := by
  rw [← EReal.coe_one, ← EReal.coe_sub, sub_self, EReal.coe_zero]

theorem mask_cases (labr labc : Fin 8192 → BitVec 32) (i j : Fin 8192) :
    (i = j ∧ posm labr labc i j = 0 ∧ negm labr labc i j = 0)
      ∨ (posm labr labc i j = 1 ∧ negm labr labc i j = 0)
      ∨ (posm labr labc i j = 0 ∧ negm labr labc i j = 1) := by
  by_cases hij : i = j
  · left
    have hp : posm labr labc i j = 0 := by rw [posm, if_pos hij, ereal_one_sub_one, mul_zero]
    exact ⟨hij, hp, by rw [negm, hp, if_pos hij, ereal_one_sub_one, sub_zero]⟩
  · right
    by_cases hl : labr i = labc j
    · left
      have hp : posm labr labc i j = 1 := by rw [posm, if_pos hl, if_neg hij, sub_zero, mul_one]
      exact ⟨hp, by rw [negm, hp, if_neg hij, sub_zero, ereal_one_sub_one]⟩
    · right
      have hp : posm labr labc i j = 0 := by rw [posm, if_neg hl, zero_mul]
      exact ⟨hp, by rw [negm, hp, if_neg hij, sub_zero, sub_zero]⟩

theorem lcomb_real (cn : Fin 8192 → Fin 128 → EReal) (hcn : ∀ i k, ∃ r : ℝ, cn i k = (r : EReal))
    (labr labc : Fin 8192 → BitVec 32) (i j : Fin 8192) : ∃ r : ℝ, lcomb cn labr labc i j = (r : EReal) := by
  obtain ⟨d, hd⟩ := dotv_real cn hcn i j
  obtain ⟨x, hx⟩ := lposv_real d
  obtain ⟨y, hy⟩ := lnegv_real d
  rw [lcomb, hd, hx, hy]
  rcases mask_cases labr labc i j with ⟨-, hp, hq⟩ | ⟨hp, hq⟩ | ⟨hp, hq⟩
  · exact ⟨0, by rw [hp, hq, zero_mul, zero_mul, add_zero, EReal.coe_zero]⟩
  · exact ⟨x, by rw [hp, hq, one_mul, zero_mul, add_zero]⟩
  · exact ⟨y, by rw [hp, hq, zero_mul, one_mul, zero_add]⟩

theorem lposr_real (cn : Fin 8192 → Fin 128 → EReal) (hcn : ∀ i k, ∃ r : ℝ, cn i k = (r : EReal)) (i j : Fin 8192) :
    ∃ r : ℝ, lposr cn i j = (r : EReal) := by
  obtain ⟨d, hd⟩ := dotv_real cn hcn i j
  rw [lposr, hd]
  exact lposv_real d

theorem posm_mul_lcomb (cn : Fin 8192 → Fin 128 → EReal) (labr labc : Fin 8192 → BitVec 32) (i j : Fin 8192) :
    posm labr labc i j * lcomb cn labr labc i j = posm labr labc i j * lposr cn i j := by
  rcases mask_cases labr labc i j with ⟨-, hp, -⟩ | ⟨hp, hq⟩ | ⟨hp, -⟩
  · rw [hp, zero_mul, zero_mul]
  · rw [lcomb, lposr, hp, hq, one_mul, zero_mul, add_zero]
  · rw [hp, zero_mul, zero_mul]

theorem online_row (cn : Fin 8192 → Fin 128 → EReal) (hcn : ∀ i k, ∃ r : ℝ, cn i k = (r : EReal))
    (labr labc : Fin 8192 → BitVec 32) (i : Fin 8192) :
    (Acc.after (lcomb cn labr labc i) (lposr cn i) (posm labr labc i) (negm labr labc i) 32 (le_refl _)).out cE6 cE8
      = rowRef (lcomb cn labr labc i) (posm labr labc i) (negm labr labc i) cE6 cE8 := by
  refine online_eq_direct (lcomb cn labr labc i) (lposr cn i) (posm labr labc i) (negm labr labc i) cE6 cE8
    (fun j => lcomb_real cn hcn labr labc i j) (fun j => lposr_real cn hcn i j) ?_ ?_
    (fun j => posm_mul_lcomb cn labr labc i j) ?_ cE6_real cE8_real
  · intro j
    rcases mask_cases labr labc i j with ⟨-, hp, -⟩ | ⟨hp, -⟩ | ⟨hp, -⟩
    · exact Or.inl hp
    · exact Or.inr hp
    · exact Or.inl hp
  · intro j
    rcases mask_cases labr labc i j with ⟨-, -, hq⟩ | ⟨-, hq⟩ | ⟨-, hq⟩
    · exact Or.inl hq
    · exact Or.inl hq
    · exact Or.inr hq
  ·
    obtain ⟨j, hj⟩ : ∃ j : Fin 8192, i ≠ j := by
      by_cases h : i = 0
      · exact ⟨1, by rw [h]; decide⟩
      · exact ⟨0, h⟩
    refine ⟨j, ?_⟩
    rcases mask_cases labr labc i j with ⟨hij, -, -⟩ | ⟨hp, -⟩ | ⟨-, hq⟩
    · exact absurd hij hj
    · exact Or.inl hp
    · exact Or.inr hq

end Cert.RowFacts

end
-- ==== Proof.KI.Equal.lean ====
import proofs.«130313_j69320772158193_1_alg».proof.Proof.KI.Value
import proofs.«130313_j69320772158193_1_alg».proof.Proof.KI.Bridge
import proofs.«130313_j69320772158193_1_alg».proof.Proof.KI.BridgeV
import proofs.«130313_j69320772158193_1_alg».proof.Proof.RowFacts
import proofs.«130313_j69320772158193_1_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.RowData Cert.OnlineRow

variable (m : (ℓ : Loc nD τ sig) → Buf (Elt Ideal) ℓ)

theorem value_eq (hpre : Cert.Pre_KernelIdeal (hPre_finite_inputs := Cert.Pre_finite_inputs.Gen.facts) m) (c : Dev nD) :
    Cert.ReferenceIdeal.ReadP.val_main_v71 (F := Ideal) (m ((c.tc : Thread nD τ).loc main_arg0)) (m ((c.tc : Thread nD τ).loc main_arg1))
      = (mulf (Host.divf (Host.reduceAdd ((dats (F := Ideal) m 0 c).arrAt 4 cfg0.N) (constant (F := Ideal) S_ .f32 0x00000000#32) reducesTo_S8192_S_d0 h_S_) (constant (F := Ideal) S_ .f32 0x46000000#32)) (constant (F := Ideal) S_ .f32 0x3F800000#32)
          : (⟨S_, .f32⟩ : BufTy).Contents (Elt Ideal)) := by
  rw [Cert.RefValue.ref_value, tail_ideal]
  funext _
  rw [Cert.Consts.cOne_eq_one, mul_one]
  refine congrArg meanRows (funext fun i => ?_)
  rw [one_mul, out_value m c i]
  have hcn : cnK m c = Cert.RefValue.cnR (m ((c.tc : Thread nD τ).loc main_arg0)) := funext fun i => funext fun k => V_feat m c i k
  have hlr : labrK m c = Cert.RefValue.labR (m ((c.tc : Thread nD τ).loc main_arg1)) := funext fun i => V_rowlab m c i
  have hlc : labcK m c = Cert.RefValue.labR (m ((c.tc : Thread nD τ).loc main_arg1)) := funext fun j => V_collab m c j
  rw [hcn, hlr, hlc]
  exact (Cert.RowFacts.online_row _ (cn_real _ (finite_of_pre m hpre c)) _ _ i).symm

end Cert.KernelIdeal.Hand

end
-- ==== Proof.lean ====
import proofs.«130313_j69320772158193_1_alg».proof.Defs
import proofs.«130313_j69320772158193_1_alg».proof.Proof.Gen.Kernel
import proofs.«130313_j69320772158193_1_alg».proof.Proof.Gen.KernelIdeal
import proofs.«130313_j69320772158193_1_alg».proof.Proof.Gen.ReferenceIdeal
import proofs.«130313_j69320772158193_1_alg».proof.Proof.Gen.Pre_finite_inputs
import proofs.«130313_j69320772158193_1_alg».proof.Proof.KB.Launch
import proofs.«130313_j69320772158193_1_alg».proof.Proof.KI.Launch
import proofs.«130313_j69320772158193_1_alg».proof.Proof.KI.Equal
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.ValueP.run (F := Ideal) m ρ)

theorem algebraic : Cert.algebraic_KernelIdeal_ReferenceIdeal := by
  intro m ρ m' ρ' hpre hagree
  refine ⟨fun c => Cert.KernelIdeal.Hand.tailVal (F := Ideal) ((Cert.KernelIdeal.Hand.dats (F := Ideal) m 0 c).arrAt 4 Cert.KernelIdeal.cfg0.N),
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  rw [Cert.ReferenceIdeal.ReadP.val_main_v71_eq, (hagree c).1, (hagree c).2.1]
  exact Cert.KernelIdeal.Hand.value_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
